-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)) (v2 : (c : Dev Cert.KernelIdeal.nD) → Buf (Elt Ideal) ((c.tc : Thread Cert.KernelIdeal.nD Cert.KernelIdeal.τ).loc Cert.KernelIdeal.main_v8)) (v3 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_v13) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v38) = v2 c
          ∧ r.2.mem ((c.tc : Thread Cert.ReferenceIdeal.nD Cert.ReferenceIdeal.τ).loc Cert.ReferenceIdeal.main_v42) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x256 : Shape := ⟨3, ![4, 4096, 256]⟩
abbrev S256x256 : Shape := ⟨2, ![256, 256]⟩
abbrev S256 : Shape := ⟨1, ![256]⟩
abbrev S2x256 : Shape := ⟨2, ![2, 256]⟩
abbrev S2 : Shape := ⟨1, ![2]⟩
abbrev S_ : Shape := ⟨0, ![]⟩

class Facts : Prop where
  bcast_S_S4x4096x256 : S_.BroadcastsInDim S4x4096x256 (![] : Fin 0 → Fin S4x4096x256.rank)
  reducesTo_S4x4096x256_S_d0_1_2 : S4x4096x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S2x256 : S_.BroadcastsInDim S2x256 (![] : Fin 0 → Fin S2x256.rank)
  reducesTo_S2x256_S_d0_1 : S2x256.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S2x256 .f32) (main_arg5 : FVec F S2 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S2x256 .f32 := Host.absf main_arg4
  let main_cst_6 : FVec F S_ .f32 := constant S_ .f32 0x7F800000#32
  let main_v20 : FVec F S2x256 .f32 := broadcastInDim S2x256 ![] bcast_S_S2x256 main_cst_6
  let main_v21 : IVec S2x256 1 := cmpf .olt main_v19 main_v20
  let main_c_7 : IVec S_ 1 := constantI S_ 1 1#1
  let main_v22 : IVec S_ 1 := (fun x v => Host.reduce IntOp.andi x v reducesTo_S2x256_S_d0_1 h_S_) main_v21 main_c_7
  let main_v23 : IVec S_ 1 := andi main_v18 main_v22
  let main_v24 : FVec F S2 .f32 := Host.absf main_arg5
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  main_v28

def fn {F : FTy → Type} [FloatOps F] (main_arg0 : FVec F S4x4096x256 .f32) (main_arg1 : FVec F S4x4096x256 .f32) (main_arg2 : FVec F S256x256 .f32) (main_arg3 : FVec F S256 .f32) (main_arg4 : FVec F S2x256 .f32) (main_arg5 : FVec F S2 .f32) : IVec S_ 1 :=
  let main_v0 : FVec F S4x4096x256 .f32 := Host.absf main_arg0
  let main_cst : FVec F S_ .f32 := constant S_ .f32 0x7F800000#32
  let main_v1 : FVec F S4x4096x256 .f32 := broadcastInDim S4x4096x256 ![] bcast_S_S4x4096x256 main_cst
  let main_v2 : IVec S4x4096x256 1 := cmpf .olt main_v0 main_v1
  let main_c : IVec S_ 1 := constantI S_ 1 1#1
  let main_v3 : IVec S_ 1 := (fun x v => Host.reduce IntOp.andi x v reducesTo_S4x4096x256_S_d0_1_2 h_S_) main_v2 main_c
  let main_v4 : FVec F S4x4096x256 .f32 := Host.absf main_arg1
  let main_cst_0 : FVec F S_ .f32 := constant S_ .f32 0x7F800000#32
  let main_v5 : FVec F S4x4096x256 .f32 := broadcastInDim S4x4096x256 ![] bcast_S_S4x4096x256 main_cst_0
  let main_v6 : IVec S4x4096x256 1 := cmpf .olt main_v4 main_v5
  let main_c_1 : IVec S_ 1 := constantI S_ 1 1#1
  let main_v7 : IVec S_ 1 := (fun x v => Host.reduce IntOp.andi x v reducesTo_S4x4096x256_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S4x4096x256 : Shape := ⟨3, ![4, 4096, 256]⟩
abbrev S256x256 : Shape := ⟨2, ![256, 256]⟩
abbrev S256 : Shape := ⟨1, ![256]⟩
abbrev S2x256 : Shape := ⟨2, ![2, 256]⟩
abbrev S2 : Shape := ⟨1, ![2]⟩
abbrev S1x256 : Shape := ⟨2, ![1, 256]⟩
abbrev S1x2 : Shape := ⟨2, ![1, 2]⟩
abbrev S16384x256 : Shape := ⟨2, ![16384, 256]⟩
abbrev S16384x2 : Shape := ⟨2, ![16384, 2]⟩
abbrev S1024x256 : Shape := ⟨2, ![1024, 256]⟩
abbrev S1024x2 : Shape := ⟨2, ![1024, 2]⟩
abbrev S4x4096x2 : Shape := ⟨3, ![4, 4096, 2]⟩
abbrev S4x4096x1 : Shape := ⟨3, ![4, 4096, 1]⟩
abbrev S4x1x4096 : Shape := ⟨3, ![4, 1, 4096]⟩
abbrev S1x1024x256 : Shape := ⟨3, ![1, 1024, 256]⟩
abbrev S1x1024x1 : Shape := ⟨3, ![1, 1024, 1]⟩
abbrev S1x1x4096 : Shape := ⟨3, ![1, 1, 4096]⟩
abbrev S1024x1 : Shape := ⟨2, ![1024, 1]⟩
abbrev S1x4096 : Shape := ⟨2, ![1, 4096]⟩
abbrev S1024x1024 : Shape := ⟨2, ![1024, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩
abbrev S4x4096x4096 : Shape := ⟨3, ![4, 4096, 4096]⟩
abbrev S1x512x256 : Shape := ⟨3, ![1, 512, 256]⟩
abbrev S1x1x512 : Shape := ⟨3, ![1, 1, 512]⟩
abbrev S1x1024x512 : Shape := ⟨3, ![1, 1024, 512]⟩
abbrev S512x256 : Shape := ⟨2, ![512, 256]⟩
abbrev S1024x512 : Shape := ⟨2, ![1024, 512]⟩
abbrev S1x512 : Shape := ⟨2, ![1, 512]⟩

abbrev nBuf : Space → Nat
  | .hbm => 26
  | .vmem => 44
  | .smem => 0
  | _ => 0

abbrev bufTy : (tb : Table) → Fin (tcTables nBuf tb) → BufTy
  | .hbm, ⟨0, _⟩ => ⟨S4x4096x256, .f32⟩
  | .hbm, ⟨1, _⟩ => ⟨S4x4096x256, .f32⟩
  | .hbm, ⟨2, _⟩ => ⟨S256x256, .f32⟩
  | .hbm, ⟨3, _⟩ => ⟨S256, .f32⟩
  | .hbm, ⟨4, _⟩ => ⟨S2x256, .f32⟩
  | .hbm, ⟨5, _⟩ => ⟨S2, .f32⟩
  | .hbm, ⟨6, _⟩ => ⟨S256x256, .bf16⟩
  | .hbm, ⟨7, _⟩ => ⟨S2x256, .bf16⟩
  | .hbm, ⟨8, _⟩ => ⟨S1x256, .f32⟩
  | .hbm, ⟨9, _⟩ => ⟨S1x2, .f32⟩
  | .hbm, ⟨10, _⟩ => ⟨S16384x256, .f32⟩
  | .hbm, ⟨11, _⟩ => ⟨S16384x256, .bf16⟩
  | .hbm, ⟨12, _⟩ => ⟨S16384x256, .bf16⟩
  | .hbm, ⟨13, _⟩ => ⟨S16384x2, .f32⟩
  | .hbm, ⟨14, _⟩ => ⟨S4x4096x256, .bf16⟩
  | .hbm, ⟨15, _⟩ => ⟨S4x4096x2, .f32⟩
  | .hbm, ⟨16, _⟩ => ⟨S16384x256, .f32⟩
  | .hbm, ⟨17, _⟩ => ⟨S16384x256, .bf16⟩
  | .hbm, ⟨18, _⟩ => ⟨S16384x256, .bf16⟩
  | .hbm, ⟨19, _⟩ => ⟨S16384x2, .f32⟩
  | .hbm, ⟨20, _⟩ => ⟨S4x4096x256, .bf16⟩
  | .hbm, ⟨21, _⟩ => ⟨S4x4096x2, .f32⟩
  | .hbm, ⟨22, _⟩ => ⟨S4x4096x1, .f32⟩
  | .hbm, ⟨23, _⟩ => ⟨S4x1x4096, .f32⟩
  | .hbm, ⟨24, _⟩ => ⟨S4x4096x4096, .f32⟩
  | .hbm, ⟨25, _⟩ => ⟨S4x4096x4096, .f32⟩
  | .local _ .vmem, ⟨0, _⟩ => ⟨S1024x256, .bf16⟩
  | .local _ .vmem, ⟨1, _⟩ => ⟨S1024x256, .bf16⟩
  | .local _ .vmem, ⟨2, _⟩ => ⟨S256x256, .bf16⟩
  | .local _ .vmem, ⟨3, _⟩ => ⟨S1x256, .f32⟩
  | .local _ .vmem, ⟨4, _⟩ => ⟨S2x256, .bf16⟩
  | .local _ .vmem, ⟨5, _⟩ => ⟨S1x2, .f32⟩
  | .local _ .vmem, ⟨6, _⟩ => ⟨S1024x256, .bf16⟩
  | .local _ .vmem, ⟨7, _⟩ => ⟨S1024x256, .bf16⟩
  | .local _ .vmem, ⟨8, _⟩ => ⟨S1024x2, .f32⟩
  | .local _ .vmem, ⟨9, _⟩ => ⟨S1024x2, .f32⟩
  | .local _ .vmem, ⟨10, _⟩ => ⟨S1024x256, .bf16⟩
  | .local _ .vmem, ⟨11, _⟩ => ⟨S1024x256, .bf16⟩
  | .local _ .vmem, ⟨12, _⟩ => ⟨S256x256, .bf16⟩
  | .local _ .vmem, ⟨13, _⟩ => ⟨S1x256, .f32⟩
  | .local _ .vmem, ⟨14, _⟩ => ⟨S2x256, .bf16⟩
  | .local _ .vmem, ⟨15, _⟩ => ⟨S1x2, .f32⟩
  | .local _ .vmem, ⟨16, _⟩ => ⟨S1024x256, .bf16⟩
  | .local _ .vmem, ⟨17, _⟩ => ⟨S1024x256, .bf16⟩
  | .local _ .vmem, ⟨18, _⟩ => ⟨S1024x2, .f32⟩
  | .local _ .vmem, ⟨19, _⟩ => ⟨S1024x2, .f32⟩
  | .local _ .vmem, ⟨20, _⟩ => ⟨S1x1024x256, .bf16⟩
  | .local _ .vmem, ⟨21, _⟩ => ⟨S1x1024x256, .bf16⟩
  | .local _ .vmem, ⟨22, _⟩ => ⟨S1x1024x256, .bf16⟩
  | .local _ .vmem, ⟨23, _⟩ => ⟨S1x1024x256, .bf16⟩
  | .local _ .vmem, ⟨24, _⟩ => ⟨S1x1024x1, .f32⟩
  | .local _ .vmem, ⟨25, _⟩ => ⟨S1x1024x1, .f32⟩
  | .local _ .vmem, ⟨26, _⟩ => ⟨S1x1x4096, .f32⟩
  | .local _ .vmem, ⟨27, _⟩ => ⟨S1x1x4096, .f32⟩
  | .local _ .vmem, ⟨28, _⟩ => ⟨S1024x1, .f32⟩
  | .local _ .vmem, ⟨29, _⟩ => ⟨S1024x1, .f32⟩
  | .local _ .vmem, ⟨30, _⟩ => ⟨S1x4096, .f32⟩
  | .local _ .vmem, ⟨31, _⟩ => ⟨S1x4096, .f32⟩
  | .local _ .vmem, ⟨32, _⟩ => ⟨S1x1024x256, .bf16⟩
  | .local _ .vmem, ⟨33, _⟩ => ⟨S1x1024x256, .bf16⟩
  | .local _ .vmem, ⟨34, _⟩ => ⟨S1x512x256, .bf16⟩
  | .local _ .vmem, ⟨35, _⟩ => ⟨S1x512x256, .bf16⟩
  | .local _ .vmem, ⟨36, _⟩ => ⟨S1x1024x1, .f32⟩
  | .local _ .vmem, ⟨37, _⟩ => ⟨S1x1024x1, .f32⟩
  | .local _ .vmem, ⟨38, _⟩ => ⟨S1x1x512, .f32⟩
  | .local _ .vmem, ⟨39, _⟩ => ⟨S1x1x512, .f32⟩
  | .local _ .vmem, ⟨40, _⟩ => ⟨S1x1024x512, .f32⟩
  | .local _ .vmem, ⟨41, _⟩ => ⟨S1x1024x512, .f32⟩
  | .local _ .vmem, ⟨42, _⟩ => ⟨S1x1024x512, .f32⟩
  | .local _ .vmem, ⟨43, _⟩ => ⟨S1x1024x512, .f32⟩
  | _, _ => ⟨S4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev main_v15_0 : Ref sig .tc := ⟨.hbm, 24, rfl⟩
abbrev main_v15_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_scratch0 : Ref sig .tc := ⟨.vmem, 28, rfl⟩
abbrev cc2_scratch1 : Ref sig .tc := ⟨.vmem, 29, rfl⟩
abbrev cc2_scratch2 : Ref sig .tc := ⟨.vmem, 30, rfl⟩
abbrev cc2_scratch3 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg2_1 : Ref sig .tc := ⟨.vmem, 37, rfl⟩
abbrev cc3_stg3_0 : Ref sig .tc := ⟨.vmem, 38, rfl⟩
abbrev cc3_stg3_1 : Ref sig .tc := ⟨.vmem, 39, rfl⟩
abbrev cc3_stg4_0 : Ref sig .tc := ⟨.vmem, 40, rfl⟩
abbrev cc3_stg4_1 : Ref sig .tc := ⟨.vmem, 41, rfl⟩
abbrev cc3_stg5_0 : Ref sig .tc := ⟨.vmem, 42, rfl⟩
abbrev cc3_stg5_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33
abbrev cc3_sem3_0 : DmaSem sig := 34
abbrev cc3_sem3_1 : DmaSem sig := 35
abbrev cc3_sem4_0 : DmaSem sig := 36
abbrev cc3_sem4_1 : DmaSem sig := 37
abbrev cc3_sem5_0 : DmaSem sig := 38
abbrev cc3_sem5_1 : DmaSem sig := 39

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x2 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1024x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1024x2 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨3, ![4, 4, 4], ![false, false, false]⟩

def k2_mult1 (i : grid2.Coords) : BitVec 32 :=
  let arg2 : BitVec 32 := BitVec.ofNat 32 (i 2).val
  let c1024_i32 : BitVec 32 := 1024#32
  let v44 : BitVec 32 := Scalar.muli arg2 c1024_i32
  v44
def k2_off1 (i : grid2.Coords) : Fin 2 → Nat :=
  let c0_24 : Index := 0#32
  let arg2 : BitVec 32 := BitVec.ofNat 32 (i 2).val
  let c1024_i32 : BitVec 32 := 1024#32
  let v44 : BitVec 32 := Scalar.muli arg2 c1024_i32
  let v45 : BitVec 32 := v44
  let v46 : Index := Scalar.indexCast v45
  ![0, v46.toNat]
def k2_cond3 (i : grid2.Coords) : BitVec 1 :=
  let arg2 : BitVec 32 := BitVec.ofNat 32 (i 2).val
  let c3_i32 : BitVec 32 := 3#32
  let v67 : BitVec 1 := Scalar.cmpi .eq arg2 c3_i32
  let v68 : BitVec 32 := Scalar.extui v67
  let c0_i32_28 : BitVec 32 := 0#32
  let v69 : BitVec 1 := Scalar.cmpi .ne v68 c0_i32_28
  v69

def k2_cond4 (i : grid2.Coords) : BitVec 1 :=
  let arg1 : BitVec 32 := BitVec.ofNat 32 (i 1).val
  let c3_i32_29 : BitVec 32 := 3#32
  let v70 : BitVec 1 := Scalar.cmpi .eq arg1 c3_i32_29
  let arg2 : BitVec 32 := BitVec.ofNat 32 (i 2).val
  let c3_i32_30 : BitVec 32 := 3#32
  let v71 : BitVec 1 := Scalar.cmpi .eq arg2 c3_i32_30
  let v72 : BitVec 1 := Scalar.andi v70 v71
  let v73 : BitVec 32 := Scalar.extui v72
  let c0_i32_31 : BitVec 32 := 0#32
  let v74 : BitVec 1 := Scalar.cmpi .ne v73 c0_i32_31
  v74

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1024x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, false]

abbrev stage2_1 : Fin 2 → Memref sig .tc .vmem S1x1024x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 2 → Memref sig .tc .vmem S1x1024x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1x1x4096 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false, false]

abbrev grid3 : Pipeline.Grid := ⟨3, ![4, 4, 8], ![false, false, false]⟩

def cc3_transform_0 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc3_transform_3 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc3_transform_4 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc3_transform_5 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage3_0 : Fin 2 → Memref sig .tc .vmem S1x1024x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, false]

abbrev stage3_1 : Fin 2 → Memref sig .tc .vmem S1x512x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false, true]

abbrev stage3_2 : Fin 2 → Memref sig .tc .vmem S1x1024x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S1x1x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false, true]

abbrev stage3_4 : Fin 2 → Memref sig .tc .vmem S1x1024x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true, true]

abbrev stage3_5 : Fin 2 → Memref sig .tc .vmem S1x1024x512 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true, true]

class Facts₀ : Prop where
  bitsLt_bf16_f32 : FTy.bits .bf16 < FTy.bits .f32
  shapeCasts_S256_S1x256 : S256.ShapeCasts S1x256
  shapeCasts_S2_S1x2 : S2.ShapeCasts S1x2
  shapeCasts_S4x4096x256_S16384x256 : S4x4096x256.ShapeCasts S16384x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  packedbf16_S1024x256_S1024x256_0_0 : (Rect.unit (s := S1024x256) ![0, 0] S1024x256.size inb_S1024x256_S1024x256_0_0).PackedRows (EltTy.packing .bf16)
  inb_S2x256_S2x256_0_0 : ∀ a, (![0, 0] : Fin 2 → Nat) a + S2x256.size a ≤ S2x256.size a
  h_S2x256 : 0 < S2x256.numel
  shapeCasts_S2x256_S2x256 : S2x256.ShapeCasts S2x256
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S1024x2 : S1x2.Broadcasts S1024x2
  inb_S1024x2_S1024x2_0_0 : ∀ a, (![0, 0] : Fin 2 → Nat) a + S1024x2.size a ≤ S1024x2.size a
  h_S1024x2 : 0 < S1024x2.numel
  shapeCasts_S16384x256_S4x4096x256 : S16384x256.ShapeCasts S4x4096x256
  shapeCasts_S16384x2_S4x4096x2 : S16384x2.ShapeCasts S4x4096x2
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  reduces_S1024x1024_S1024 : S1024x1024.Reduces [1] S1024
  shapeCasts_S1024_S1024x1 : S1024.ShapeCasts S1024x1
  reduces_S1024x1024_S1024_2 : S1024x1024.Reduces [0] S1024
  shapeCasts_S1024_S1x1024 : S1024.ShapeCasts S1x1024
  reduces_S1024x1_S1 : S1024x1.Reduces [0] S1
  shapeCasts_S1_S1x1 : S1.ShapeCasts S1x1
  broadcasts_S1x1_S1024x1024 : S1x1.Broadcasts S1024x1024
  broadcasts_S1x1_S1024x1 : S1x1.Broadcasts S1024x1
  h_S1x1024 : 0 < S1x1024.numel
  broadcasts_S1x1_S1x1024 : S1x1.Broadcasts S1x1024
  shapeCasts_S1x1024_S1x1024 : S1x1024.ShapeCasts S1x1024
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  shapeCasts_S1x4096_S1x1x4096 : S1x4096.ShapeCasts S1x1x4096
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  broadcasts_S1024x1_S1024x512 : S1024x1.Broadcasts S1024x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S1024x512 : S1x512.Broadcasts S1024x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  shapeCasts_S1024x512_S1x1024x512 : S1024x512.ShapeCasts S1x1024x512
  dot_S1024x256_S256x256_S1024x256_1_1_0_0_n_n_wf : DotDims.WF S1024x256 S256x256 S1024x256 [1] [1] [0] [0] [] []
  dot_S1024x256_S2x256_S1024x2_1_1_0_0_n_n_wf : DotDims.WF S1024x256 S2x256 S1024x2 [1] [1] [0] [0] [] []
  dot_S1024x256_S1024x256_S1024x1024_1_1_0_0_n_n_wf : DotDims.WF S1024x256 S1024x256 S1024x1024 [1] [1] [0] [0] [] []
  dot_S1024x256_S512x256_S1024x512_1_1_0_0_n_n_wf : DotDims.WF S1024x256 S512x256 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S16384x256.size a
  hwx0_0 : ∀ i : grid0.Coords, EltTy.bits .bf16 = 32 ∨ (Rect.block (s := S16384x256) S1024x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x256.size a ≤ S2x256.size a
  hwx0_3 : ∀ i : grid0.Coords, EltTy.bits .bf16 = 32 ∨ (Rect.block (s := S2x256) S2x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2.size a ≤ S1x2.size a
  hwx0_4 : ∀ i : grid0.Coords, EltTy.bits .f32 = 32 ∨ (Rect.block (s := S1x2) S1x2.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S16384x256.size a
  hwx0_5 : ∀ i : grid0.Coords, EltTy.bits .bf16 = 32 ∨ (Rect.block (s := S16384x256) S1024x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x2.size a ≤ S16384x2.size a
  hwx0_6 : ∀ i : grid0.Coords, EltTy.bits .f32 = 32 ∨ (Rect.block (s := S16384x2) S1024x2.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S16384x256.size a
  hwx1_0 : ∀ i : grid1.Coords, EltTy.bits .bf16 = 32 ∨ (Rect.block (s := S16384x256) S1024x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .bf16 = 32 ∨ (Rect.block (s := S256x256) S256x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2x256.size a ≤ S2x256.size a
  hwx1_3 : ∀ i : grid1.Coords, EltTy.bits .bf16 = 32 ∨ (Rect.block (s := S2x256) S2x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x2.size a ≤ S1x2.size a
  hwx1_4 : ∀ i : grid1.Coords, EltTy.bits .f32 = 32 ∨ (Rect.block (s := S1x2) S1x2.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x256.size a ≤ S16384x256.size a
  hwx1_5 : ∀ i : grid1.Coords, EltTy.bits .bf16 = 32 ∨ (Rect.block (s := S16384x256) S1024x256.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x2.size a ≤ S16384x2.size a
  hwx1_6 : ∀ i : grid1.Coords, EltTy.bits .f32 = 32 ∨ (Rect.block (s := S16384x2) S1024x2.size (cc1_transform_6 i) (hinb1_6 i)).WholeWords (EltTy.packing .f32)
  hrank2 : 0 < grid2.rank
  k2_mult1_dvd : ∀ i : grid2.Coords, 128 ∣ (k2_mult1 i).toNat
  k2_off1_inb : ∀ i : grid2.Coords, ∀ a, (k2_off1 i) a + S1x1024.size a ≤ S1x4096.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024x256.size a ≤ S4x4096x256.size a
  hwx2_0 : ∀ i : grid2.Coords, EltTy.bits .bf16 = 32 ∨ (Rect.block (s := S4x4096x256) S1x1024x256.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1024x256.size a ≤ S4x4096x256.size a
  hwx2_1 : ∀ i : grid2.Coords, EltTy.bits .bf16 = 32 ∨ (Rect.block (s := S4x4096x256) S1x1024x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024x1.size a ≤ S4x4096x1.size a
  hwx2_2 : ∀ i : grid2.Coords, EltTy.bits .f32 = 32 ∨ (Rect.block (s := S4x4096x1) S1x1024x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1x4096.size a ≤ S4x1x4096.size a
  hwx2_3 : ∀ i : grid2.Coords, EltTy.bits .f32 = 32 ∨ (Rect.block (s := S4x1x4096) S1x1x4096.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x1024x256.size a ≤ S4x4096x256.size a
  hwx3_0 : ∀ i : grid3.Coords, EltTy.bits .bf16 = 32 ∨ (Rect.block (s := S4x4096x256) S1x1024x256.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x512x256.size a ≤ S4x4096x256.size a
  hwx3_1 : ∀ i : grid3.Coords, EltTy.bits .bf16 = 32 ∨ (Rect.block (s := S4x4096x256) S1x512x256.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1024x1.size a ≤ S4x4096x1.size a
  hwx3_2 : ∀ i : grid3.Coords, EltTy.bits .f32 = 32 ∨ (Rect.block (s := S4x4096x1) S1x1024x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x1x512.size a ≤ S4x1x4096.size a
  hwx3_3 : ∀ i : grid3.Coords, EltTy.bits .f32 = 32 ∨ (Rect.block (s := S4x1x4096) S1x1x512.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x1024x512.size a ≤ S4x4096x4096.size a
  hwx3_4 : ∀ i : grid3.Coords, EltTy.bits .f32 = 32 ∨ (Rect.block (s := S4x4096x4096) S1x1024x512.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1x1024x512.size a ≤ S4x4096x4096.size a
  hwx3_5 : ∀ i : grid3.Coords, EltTy.bits .f32 = 32 ∨ (Rect.block (s := S4x4096x4096) S1x1024x512.size (cc3_transform_5 i) (hinb3_5 i)).WholeWords (EltTy.packing .f32)

variable [Facts₀]

def dot_S1024x256_S256x256_S1024x256_1_1_0_0_n_n : DotDims S1024x256 S256x256 S1024x256 where
  lhsContracting := [1]
  rhsContracting := [1]
  lhsNonContracting := [0]
  rhsNonContracting := [0]
  lhsBatch := []
  rhsBatch := []
  wf := dot_S1024x256_S256x256_S1024x256_1_1_0_0_n_n_wf
def dot_S1024x256_S2x256_S1024x2_1_1_0_0_n_n : DotDims S1024x256 S2x256 S1024x2 where
  lhsContracting := [1]
  rhsContracting := [1]
  lhsNonContracting := [0]
  rhsNonContracting := [0]
  lhsBatch := []
  rhsBatch := []
  wf := dot_S1024x256_S2x256_S1024x2_1_1_0_0_n_n_wf
def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf
def dot_S1024x256_S512x256_S1024x512_1_1_0_0_n_n : DotDims S1024x256 S512x256 S1024x512 where
  lhsContracting := [1]
  rhsContracting := [1]
  lhsNonContracting := [0]
  rhsNonContracting := [0]
  lhsBatch := []
  rhsBatch := []
  wf := dot_S1024x256_S512x256_S1024x512_1_1_0_0_n_n_wf

abbrev win0_0 : Pipeline.Window sig grid0 :=
  Pipeline.Window.ofSpec (Memref.whole main_v5) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x2.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6_0) S1024x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_1) S1024x2.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v10) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S2x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x2.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11_0) S1024x256.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v11_1) S1024x2.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v7) S1x1024x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S1x1024x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14_0) S1x1024x1.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v14_1) S1x1x4096.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun i => !(k2_cond3 i == 1#1) | 3 => fun i => !(k2_cond4 i == 1#1) | ⟨_ + 4, h⟩ => absurd h (Nat.not_lt.2 (Nat.le_add_left _ _))

abbrev win3_0 : Pipeline.Window sig grid3 :=
  Pipeline.Window.ofSpec (Memref.whole main_v7) S1x1024x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S1x512x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v14_0) S1x1024x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v14_1) S1x1x512.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v15_0) S1x1024x512.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v15_1) S1x1024x512.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S4x4096x256 : Shape := ⟨3, ![4, 4096, 256]⟩
abbrev S256x256 : Shape := ⟨2, ![256, 256]⟩
abbrev S256 : Shape := ⟨1, ![256]⟩
abbrev S2x256 : Shape := ⟨2, ![2, 256]⟩
abbrev S2 : Shape := ⟨1, ![2]⟩
abbrev S1x1x256 : Shape := ⟨3, ![1, 1, 256]⟩
abbrev S_ : Shape := ⟨0, ![]⟩
abbrev S4x4096x4096 : Shape := ⟨3, ![4, 4096, 4096]⟩
abbrev S4x4096 : Shape := ⟨2, ![4, 4096]⟩
abbrev S4x4096x1 : Shape := ⟨3, ![4, 4096, 1]⟩
abbrev S4x1x4096 : Shape := ⟨3, ![4, 1, 4096]⟩
abbrev S4x4096x2 : Shape := ⟨3, ![4, 4096, 2]⟩
abbrev S1x1x2 : Shape := ⟨3, ![1, 1, 2]⟩

abbrev nBuf : Space → Nat
  | .hbm => 57
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S4x4096x256, .f32⟩
  | .hbm, ⟨2, _⟩ => ⟨S256x256, .f32⟩
  | .hbm, ⟨3, _⟩ => ⟨S256, .f32⟩
  | .hbm, ⟨4, _⟩ => ⟨S2x256, .f32⟩
  | .hbm, ⟨5, _⟩ => ⟨S2, .f32⟩
  | .hbm, ⟨6, _⟩ => ⟨S4x4096x256, .f32⟩
  | .hbm, ⟨7, _⟩ => ⟨S1x1x256, .f32⟩
  | .hbm, ⟨8, _⟩ => ⟨S4x4096x256, .f32⟩
  | .hbm, ⟨9, _⟩ => ⟨S4x4096x256, .f32⟩
  | .hbm, ⟨10, _⟩ => ⟨S_, .f32⟩
  | .hbm, ⟨11, _⟩ => ⟨S4x4096x256, .f32⟩
  | .hbm, ⟨12, _⟩ => ⟨S4x4096x256, .f32⟩
  | .hbm, ⟨13, _⟩ => ⟨S4x4096x256, .f32⟩
  | .hbm, ⟨14, _⟩ => ⟨S1x1x256, .f32⟩
  | .hbm, ⟨15, _⟩ => ⟨S4x4096x256, .f32⟩
  | .hbm, ⟨16, _⟩ => ⟨S4x4096x256, .f32⟩
  | .hbm, ⟨17, _⟩ => ⟨S_, .f32⟩
  | .hbm, ⟨18, _⟩ => ⟨S4x4096x256, .f32⟩
  | .hbm, ⟨19, _⟩ => ⟨S4x4096x256, .f32⟩
  | .hbm, ⟨20, _⟩ => ⟨S4x4096x4096, .f32⟩
  | .hbm, ⟨21, _⟩ => ⟨S_, .f32⟩
  | .hbm, ⟨22, _⟩ => ⟨S4x4096, .f32⟩
  | .hbm, ⟨23, _⟩ => ⟨S_, .f32⟩
  | .hbm, ⟨24, _⟩ => ⟨S4x4096, .f32⟩
  | .hbm, ⟨25, _⟩ => ⟨S4x4096, .f32⟩
  | .hbm, ⟨26, _⟩ => ⟨S4x4096x1, .f32⟩
  | .hbm, ⟨27, _⟩ => ⟨S4x4096x4096, .f32⟩
  | .hbm, ⟨28, _⟩ => ⟨S4x4096x4096, .f32⟩
  | .hbm, ⟨29, _⟩ => ⟨S4x4096x4096, .f32⟩
  | .hbm, ⟨30, _⟩ => ⟨S_, .f32⟩
  | .hbm, ⟨31, _⟩ => ⟨S4x4096, .f32⟩
  | .hbm, ⟨32, _⟩ => ⟨S4x4096x1, .f32⟩
  | .hbm, ⟨33, _⟩ => ⟨S4x4096x4096, .f32⟩
  | .hbm, ⟨34, _⟩ => ⟨S4x4096x4096, .f32⟩
  | .hbm, ⟨35, _⟩ => ⟨S_, .f32⟩
  | .hbm, ⟨36, _⟩ => ⟨S4x4096, .f32⟩
  | .hbm, ⟨37, _⟩ => ⟨S_, .f32⟩
  | .hbm, ⟨38, _⟩ => ⟨S4x4096, .f32⟩
  | .hbm, ⟨39, _⟩ => ⟨S4x4096, .f32⟩
  | .hbm, ⟨40, _⟩ => ⟨S4x1x4096, .f32⟩
  | .hbm, ⟨41, _⟩ => ⟨S4x4096x4096, .f32⟩
  | .hbm, ⟨42, _⟩ => ⟨S4x4096x4096, .f32⟩
  | .hbm, ⟨43, _⟩ => ⟨S4x4096x4096, .f32⟩
  | .hbm, ⟨44, _⟩ => ⟨S_, .f32⟩
  | .hbm, ⟨45, _⟩ => ⟨S4x4096, .f32⟩
  | .hbm, ⟨46, _⟩ => ⟨S4x1x4096, .f32⟩
  | .hbm, ⟨47, _⟩ => ⟨S4x4096x4096, .f32⟩
  | .hbm, ⟨48, _⟩ => ⟨S4x4096x4096, .f32⟩
  | .hbm, ⟨49, _⟩ => ⟨S4x4096x2, .f32⟩
  | .hbm, ⟨50, _⟩ => ⟨S1x1x2, .f32⟩
  | .hbm, ⟨51, _⟩ => ⟨S4x4096x2, .f32⟩
  | .hbm, ⟨52, _⟩ => ⟨S4x4096x2, .f32⟩
  | .hbm, ⟨53, _⟩ => ⟨S4x4096x2, .f32⟩
  | .hbm, ⟨54, _⟩ => ⟨S1x1x2, .f32⟩
  | .hbm, ⟨55, _⟩ => ⟨S4x4096x2, .f32⟩
  | .hbm, ⟨56, _⟩ => ⟨S4x4096x2, .f32⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S4x4096x256_0_1_2 : S1x1x256.BroadcastsInDim S4x4096x256 (![0, 1, 2] : Fin 3 → Fin S4x4096x256.rank)
  bcast_S_S4x4096x256 : S_.BroadcastsInDim S4x4096x256 (![] : Fin 0 → Fin S4x4096x256.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  reducesTo_S4x4096x4096_S4x4096_d1 : S4x4096x4096.ReducesTo [1] S4x4096
  bcast_S4x4096_S4x1x4096_0_2 : S4x4096.BroadcastsInDim S4x1x4096 (![0, 2] : Fin 2 → Fin S4x1x4096.rank)
  bcast_S4x1x4096_S4x4096x4096_0_1_2 : S4x1x4096.BroadcastsInDim S4x4096x4096 (![0, 1, 2] : Fin 3 → Fin S4x4096x4096.rank)
  bcast_S2_S1x1x2_2 : S2.BroadcastsInDim S1x1x2 (![2] : Fin 1 → Fin S1x1x2.rank)
  bcast_S1x1x2_S4x4096x2_0_1_2 : S1x1x2.BroadcastsInDim S4x4096x2 (![0, 1, 2] : Fin 3 → Fin S4x4096x2.rank)
  dot_S4x4096x256_S256x256_S4x4096x256_2_1_01_0_n_n_wf : DotDims.WF S4x4096x256 S256x256 S4x4096x256 [2] [1] [0, 1] [0] [] []
  dot_S4x4096x256_S4x4096x256_S4x4096x4096_2_2_1_1_0_0_wf : DotDims.WF S4x4096x256 S4x4096x256 S4x4096x4096 [2] [2] [1] [1] [0] [0]
  dot_S4x4096x256_S2x256_S4x4096x2_2_1_01_0_n_n_wf : DotDims.WF S4x4096x256 S2x256 S4x4096x2 [2] [1] [0, 1] [0] [] []

variable [Facts₀]

def dot_S4x4096x256_S256x256_S4x4096x256_2_1_01_0_n_n : DotDims S4x4096x256 S256x256 S4x4096x256 where
  lhsContracting := [2]
  rhsContracting := [1]
  lhsNonContracting := [0, 1]
  rhsNonContracting := [0]
  lhsBatch := []
  rhsBatch := []
  wf := dot_S4x4096x256_S256x256_S4x4096x256_2_1_01_0_n_n_wf
def dot_S4x4096x256_S4x4096x256_S4x4096x4096_2_2_1_1_0_0 : DotDims S4x4096x256 S4x4096x256 S4x4096x4096 where
  lhsContracting := [2]
  rhsContracting := [2]
  lhsNonContracting := [1]
  rhsNonContracting := [1]
  lhsBatch := [0]
  rhsBatch := [0]
  wf := dot_S4x4096x256_S4x4096x256_S4x4096x4096_2_2_1_1_0_0_wf
def dot_S4x4096x256_S2x256_S4x4096x2_2_1_01_0_n_n : DotDims S4x4096x256 S2x256 S4x4096x2 where
  lhsContracting := [2]
  rhsContracting := [1]
  lhsNonContracting := [0, 1]
  rhsNonContracting := [0]
  lhsBatch := []
  rhsBatch := []
  wf := dot_S4x4096x256_S2x256_S4x4096x2_2_1_01_0_n_n_wf

class Facts : Prop extends Facts₀ where

variable [Facts]
-- ==== Proof.KI.Reg0Defs.lean ====
import proofs.«423235_j29944511988266_3_alg».proof.Proof.Gen.KernelIdeal.Skeleton
import Idealize.ShloMosaic.Lib.Pipeline.FrameBody

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S1024x256 := Rect.unit (s := S1024x256) ![0, 0] S1024x256.size inb_S1024x256_S1024x256_0_0
abbrev r0_1 : Rect S256x256 := Rect.unit (s := S256x256) ![0, 0] S256x256.size inb_S256x256_S256x256_0_0
abbrev r0_2 : Rect S1x256 := Rect.unit (s := S1x256) ![0, 0] S1x256.size inb_S1x256_S1x256_0_0
abbrev r0_3 : Rect S2x256 := Rect.unit (s := S2x256) ![0, 0] S2x256.size inb_S2x256_S2x256_0_0
abbrev r0_4 : Rect S1x2 := Rect.unit (s := S1x2) ![0, 0] S1x2.size inb_S1x2_S1x2_0_0
abbrev r0_5 : Rect S1024x256 := Rect.unit (s := S1024x256) ![0, 0] S1024x256.size inb_S1024x256_S1024x256_0_0
abbrev r0_6 : Rect S1024x2 := Rect.unit (s := S1024x2) ![0, 0] S1024x2.size inb_S1024x2_S1024x2_0_0

def out0_5 (x0 : Vec F S1024x256 .bf16) (x1 : Vec F S256x256 .bf16) (x2 : Vec F S1x256 .f32) : Vec F S1024x256 .bf16 :=
  View.canon [⟨r0_5, k0_pay2 (View.ld x0 r0_0) (View.ld x1 r0_1) (View.ld x2 r0_2)⟩]

def out0_6 (x0 : Vec F S1024x256 .bf16) (x3 : Vec F S2x256 .bf16) (x4 : Vec F S1x2 .f32) : Vec F S1024x2 .f32 :=
  View.canon [⟨r0_6, k0_pay3 (View.ld x0 r0_0) (View.ld x3 r0_3) (View.ld x4 r0_4)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t)
    | ⟨6, _⟩ => out0_6 (iblk0 V c 0 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) := by dsimp only [dat0]
theorem after0_6 (c : Dev nD) (t : Fin cfg0.N) :
    (dat0 V c).after 6 t = out0_6 (iblk0 V c 0 t) (iblk0 V c 3 t) (iblk0 V c 4 t) := by dsimp only [dat0]

end Cert.KernelIdeal.Hand

end
-- ==== Proof.KI.Reg1Defs.lean ====
import proofs.«423235_j29944511988266_3_alg».proof.Proof.KI.Reg0Defs
import Idealize.ShloMosaic.Lib.Pipeline.FrameBody

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out0_5 (iblk1 V c 0 t) (iblk1 V c 1 t) (iblk1 V c 2 t)
    | ⟨6, _⟩ => out0_6 (iblk1 V c 0 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out0_5 (iblk1 V c 0 t) (iblk1 V c 1 t) (iblk1 V c 2 t) := by dsimp only [dat1]
theorem after1_6 (c : Dev nD) (t : Fin cfg1.N) :
    (dat1 V c).after 6 t = out0_6 (iblk1 V c 0 t) (iblk1 V c 3 t) (iblk1 V c 4 t) := by dsimp only [dat1]

end Cert.KernelIdeal.Hand

end
-- ==== Proof.KI.Reg2Defs.lean ====
import proofs.«423235_j29944511988266_3_alg».proof.Proof.Gen.KernelIdeal.Launch
import proofs.«423235_j29944511988266_3_alg».proof.Proof.Gen.KernelIdeal.Skeleton
import proofs.«423235_j29944511988266_3_alg».proof.Proof.Gen.KernelIdeal.Points
import Idealize.ShloMosaic.Lib.Pipeline.FrameBody

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

structure Scr2 (F : FTy → Type) where
  rm : Vec F S1024x1 .f32
  rl : Vec F S1024x1 .f32
  cm : Vec F S1x4096 .f32
  cl : Vec F S1x4096 .f32

abbrev colRect2 (i : grid2.Coords) : Rect S1x4096 :=
  Rect.unit (s := S1x4096) (k2_off1 i) S1x1024.size (Gen.k2_off1_inb i)

def step2 (i : grid2.Coords) (q k : Vec F S1x1024x256 .bf16) (s : Scr2 F) : Scr2 F :=
  let rm0 : Vec F S1024x1 .f32 := if (i 2).val = 0 then k2_pay2 else s.rm
  let rl0 : Vec F S1024x1 .f32 := if (i 2).val = 0 then k2_pay3 else s.rl
  let cm0 : Vec F S1x4096 .f32 := if (i 1).val = 0 ∧ (i 2).val = 0 then k2_pay4 else s.cm
  let cl0 : Vec F S1x4096 .f32 := if (i 1).val = 0 ∧ (i 2).val = 0 then k2_pay5 else s.cl
  { rm := k2_pay17 (k2_pay13 q k rm0)
    rl := k2_pay16 (k2_pay11 q k) (k2_pay14 q k rm0 rm0) (k2_pay15 q k rm0) rl0
    cm := (colRect2 i).overlay cm0 (k2_pay19 (k2_pay8 q k) (View.ld cm0 (colRect2 i)))
    cl := (colRect2 i).overlay cl0 (k2_pay20 (k2_pay8 q k) (k2_pay9 q k) (k2_pay12 q k) (View.ld cm0 (colRect2 i)) (View.ld cl0 (colRect2 i))) }

def junk2 : Scr2 F :=
  ⟨fun _ => Classical.choice (Elt.nonempty F .f32), fun _ => Classical.choice (Elt.nonempty F .f32),
    fun _ => Classical.choice (Elt.nonempty F .f32), fun _ => Classical.choice (Elt.nonempty F .f32)⟩

theorem step2_reset (i : grid2.Coords) (q k : Vec F S1x1024x256 .bf16) (s s' : Scr2 F) (h1 : (i 1).val = 0) (h2 : (i 2).val = 0) :
    step2 i q k s = step2 i q k s' := by
  unfold step2
  simp only [if_pos h2, if_pos (And.intro h1 h2)]

abbrev condJ0 (i : grid2.Coords) : Prop :=
  (Scalar.cmpi .ne (Scalar.extui (Scalar.cmpi .eq (BitVec.ofNat 32 (i 2).val) 0#32)) 0#32) = 1#1

theorem condJ0_iff : ∀ i : grid2.Coords, condJ0 i ↔ (i 2).val = 0 := by decide +kernel

abbrev condIJ0 (i : grid2.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1

theorem condIJ0_iff : ∀ i : grid2.Coords, condIJ0 i ↔ ((i 1).val = 0 ∧ (i 2).val = 0) := by decide +kernel

theorem cond3_iff : ∀ i : grid2.Coords, k2_cond3 i = 1#1 ↔ (i 2).val = 3 := by decide +kernel
theorem cond4_iff : ∀ i : grid2.Coords, k2_cond4 i = 1#1 ↔ ((i 1).val = 3 ∧ (i 2).val = 3) := by decide +kernel

def scrAt2 (c : Dev nD) : (n : ℕ) → n < cfg2.N → Scr2 F
  | 0, hn => step2 (grid2.coords ⟨0, hn⟩) (iblk2 V c 0 ⟨0, hn⟩) (iblk2 V c 1 ⟨0, hn⟩) junk2
  | n + 1, hn => step2 (grid2.coords ⟨n + 1, hn⟩) (iblk2 V c 0 ⟨n + 1, hn⟩) (iblk2 V c 1 ⟨n + 1, hn⟩) (scrAt2 c n (Nat.lt_of_succ_lt hn))

theorem scrAt2_zero (c : Dev nD) (hn : 0 < cfg2.N) :
    scrAt2 V c 0 hn = step2 (grid2.coords ⟨0, hn⟩) (iblk2 V c 0 ⟨0, hn⟩) (iblk2 V c 1 ⟨0, hn⟩) junk2 := rfl

theorem scrAt2_succ (c : Dev nD) (n : ℕ) (hn : n + 1 < cfg2.N) :
    scrAt2 V c (n + 1) hn = step2 (grid2.coords ⟨n + 1, hn⟩) (iblk2 V c 0 ⟨n + 1, hn⟩) (iblk2 V c 1 ⟨n + 1, hn⟩) (scrAt2 V c n (Nat.lt_of_succ_lt hn)) := rfl

theorem scrAt2_pos (c : Dev nD) (t : Fin cfg2.N) (ht : t.val ≠ 0) :
    scrAt2 V c t.val t.isLt = step2 (grid2.coords t) (iblk2 V c 0 t) (iblk2 V c 1 t)
      (scrAt2 V c (t.val - 1) (Nat.lt_of_le_of_lt (Nat.sub_le _ _) t.isLt)) := by
  obtain ⟨n, hn⟩ := t
  cases n with
  | zero => exact absurd rfl ht
  | succ n => rfl

abbrev rowRect2 : Rect S1x1024x1 := Rect.unit (s := S1x1024x1) ![0, 0, 0] S1x1024x1.size inb_S1x1024x1_S1x1024x1_0_0_0
abbrev colOutRect2 : Rect S1x1x4096 := Rect.unit (s := S1x1x4096) ![0, 0, 0] S1x1x4096.size inb_S1x1x4096_S1x1x4096_0_0_0

def rowOut2 (c : Dev nD) (t : Fin cfg2.N) : Vec F S1x1024x1 .f32 :=
  View.canon [⟨rowRect2, k2_pay21 (scrAt2 V c t.val t.isLt).rm (scrAt2 V c t.val t.isLt).rl⟩]

def colOut2 (c : Dev nD) (t : Fin cfg2.N) : Vec F S1x1x4096 .f32 :=
  View.canon [⟨colOutRect2, k2_pay1 (scrAt2 V c t.val t.isLt).cm (scrAt2 V c t.val t.isLt).cl⟩]

abbrev scM2_0 : Memref sig .tc .vmem S1024x1 .f32 := Memref.whole cc2_scratch0
abbrev scM2_1 : Memref sig .tc .vmem S1024x1 .f32 := Memref.whole cc2_scratch1
abbrev scM2_2 : Memref sig .tc .vmem S1x4096 .f32 := Memref.whole cc2_scratch2
abbrev scM2_3 : Memref sig .tc .vmem S1x4096 .f32 := Memref.whole cc2_scratch3

abbrev restBut2 (c : Dev nD) : sProp 𝕄 :=
  Pipeline.scopedRestBut (Ix := Unit) (Name := ℕ) (U := UR sig nD τ) (Lvl := ℕ) (Val := Elt F) spec2 c [cc2_scratch0, cc2_scratch1, cc2_scratch2, cc2_scratch3]

abbrev ownsScr2 (c : Dev nD) (s : Scr2 F) : sProp 𝕄 :=
  iprop(owns (c : Thread nD τ) scM2_0 fullShare s.rm ∗ owns (c : Thread nD τ) scM2_1 fullShare s.rl
    ∗ owns (c : Thread nD τ) scM2_2 fullShare s.cm ∗ owns (c : Thread nD τ) scM2_3 fullShare s.cl)

def PhiS2 (c : Dev nD) : (n : ℕ) → n ≤ cfg2.N → sProp 𝕄
  | 0, _ => Pipeline.ΦA spec2 c
  | n + 1, hn => iprop(ownsScr2 c (scrAt2 V c n hn) ∗ restBut2 c ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(ownsScr2 c (scrAt2 V c n hn) ∗ restBut2 c ∗ (∃ r, prngReg c r)) := rfl

theorem PhiS2_pos (c : Dev nD) (n : ℕ) (h : n ≤ cfg2.N) (hz : n ≠ 0) :
    PhiS2 V c n h = iprop(ownsScr2 c (scrAt2 V c (n - 1) (by omega)) ∗ restBut2 c ∗ (∃ r, prngReg c r)) := by
  cases n with
  | zero => exact absurd rfl hz
  | succ n => rfl

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)
            ∗ (∃ d, owns (c : Thread nD τ) scM2_2 fullShare d) ∗ (∃ d, owns (c : Thread nD τ) scM2_3 fullShare d))
          ∗ restBut2 c) ∗ (∃ r, prngReg c r)) := by
  unfold Pipeline.ΦA; rw [scopedRest2_split]; simp only [scM2_0, scM2_1, scM2_2, scM2_3, owns_whole]; try rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => rowOut2 V c t
    | ⟨3, _⟩ => colOut2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = rowOut2 V c t := by dsimp only [dat2]
theorem after2_3 (c : Dev nD) (t : Fin cfg2.N) : (dat2 V c).after 3 t = colOut2 V c t := by dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem PhiS2_succ' (c : Dev nD) (t : Fin cfg2.N) :
    (dat2 V c).Φ t.succ = PhiS2 V c (t.val + 1) t.isLt := rfl

end Cert.KernelIdeal.Hand

end
-- ==== Proof.KI.Reg3Defs.lean ====
import proofs.«423235_j29944511988266_3_alg».proof.Proof.Gen.KernelIdeal.Launch
import proofs.«423235_j29944511988266_3_alg».proof.Proof.Gen.KernelIdeal.Skeleton
import Idealize.ShloMosaic.Lib.Pipeline.FrameBody

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S1x1024x256 := Rect.unit (s := S1x1024x256) ![0, 0, 0] S1x1024x256.size inb_S1x1024x256_S1x1024x256_0_0_0
abbrev r3_1 : Rect S1x512x256 := Rect.unit (s := S1x512x256) ![0, 0, 0] S1x512x256.size inb_S1x512x256_S1x512x256_0_0_0
abbrev r3_2 : Rect S1x1024x1 := Rect.unit (s := S1x1024x1) ![0, 0, 0] S1x1024x1.size inb_S1x1024x1_S1x1024x1_0_0_0
abbrev r3_3 : Rect S1x1x512 := Rect.unit (s := S1x1x512) ![0, 0, 0] S1x1x512.size inb_S1x1x512_S1x1x512_0_0_0
abbrev r3_o : Rect S1x1024x512 := Rect.unit (s := S1x1024x512) ![0, 0, 0] S1x1024x512.size inb_S1x1024x512_S1x1024x512_0_0_0

def out3_4 (x0 : Vec F S1x1024x256 .bf16) (x1 : Vec F S1x512x256 .bf16) (x2 : Vec F S1x1024x1 .f32) : Vec F S1x1024x512 .f32 :=
  View.canon [⟨r3_o, k3_pay2 (View.ld x0 r3_0) (View.ld x1 r3_1) (View.ld x2 r3_2)⟩]

def out3_5 (x0 : Vec F S1x1024x256 .bf16) (x1 : Vec F S1x512x256 .bf16) (x3 : Vec F S1x1x512 .f32) : Vec F S1x1024x512 .f32 :=
  View.canon [⟨r3_o, k3_pay3 (View.ld x0 r3_0) (View.ld x1 r3_1) (View.ld x3 r3_3)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t)
    | ⟨5, _⟩ => out3_5 (iblk3 V c 0 t) (iblk3 V c 1 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3_4 (iblk3 V c 0 t) (iblk3 V c 1 t) (iblk3 V c 2 t) := by dsimp only [dat3]
theorem after3_5 (c : Dev nD) (t : Fin cfg3.N) :
    (dat3 V c).after 5 t = out3_5 (iblk3 V c 0 t) (iblk3 V c 1 t) (iblk3 V c 3 t) := by dsimp only [dat3]

end Cert.KernelIdeal.Hand

end
-- ==== Proof.KI.Fold.lean ====
import proofs.«423235_j29944511988266_3_alg».proof.Proof.KI.Reg0Defs
import proofs.«423235_j29944511988266_3_alg».proof.Proof.KI.Reg1Defs
import proofs.«423235_j29944511988266_3_alg».proof.Proof.KI.Reg2Defs
import proofs.«423235_j29944511988266_3_alg».proof.Proof.KI.Reg3Defs
import proofs.«423235_j29944511988266_3_alg».proof.Proof.Gen.KernelIdeal.Regions
import Idealize.ShloMosaic.Lib.Pipeline.FrameBody
import Idealize.ShloMosaic.Lib.Pipeline.RegionsLoop
import Idealize.ShloMosaic.Lib.Pipeline.FrameSuffix

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
abbrev Untouched (b : Ref sig .tc) : Prop :=
  b ∉ hostOps0_W ∧ b ∉ hostOps1_W ∧ b ∉ hostOps2_W ∧ (∀ w, Pipeline.arrRef spec0 w ≠ b) ∧ (∀ w, Pipeline.arrRef spec1 w ≠ b)
    ∧ (∀ w, Pipeline.arrRef spec2 w ≠ b) ∧ ∀ w, Pipeline.arrRef spec3 w ≠ b

theorem W7_keep (c : Dev nD) (b : Ref sig .tc) (h : Untouched b) :
    W7 m ρ c (Proc.devRef .tc b) = m ((c : Thread nD τ).loc b) :=
  calc W7 m ρ c (Proc.devRef .tc b)
    _ = W6 m ρ c (Proc.devRef .tc b) := W7_of_ne m ρ c b h.2.2.2.2.2.2
    _ = W5 m ρ c (Proc.devRef .tc b) := W6_of_ne m ρ c b h.2.2.2.2.2.1
    _ = W4 m ρ c (Proc.devRef .tc b) := StableHlo.after_of_writes_sub hostOps2 _ hostOps2_writes h.2.2.1
    _ = W3 m ρ c (Proc.devRef .tc b) := W4_of_ne m ρ c b h.2.2.2.2.1
    _ = W2 m ρ c (Proc.devRef .tc b) := StableHlo.after_of_writes_sub hostOps1 _ hostOps1_writes h.2.1
    _ = W1 m ρ c (Proc.devRef .tc b) := W2_of_ne m ρ c b h.2.2.2.1
    _ = W0 m ρ c (Proc.devRef .tc b) := StableHlo.after_of_writes_sub hostOps0 _ hostOps0_writes h.1
    _ = m ((c : Thread nD τ).loc b) := rfl

end Cert.KernelIdeal.Hand

end
-- ==== Proof.KI.Reg0.lean ====
import proofs.«423235_j29944511988266_3_alg».proof.Proof.KI.Reg0Defs
import proofs.«423235_j29944511988266_3_alg».proof.Proof.Gen.KernelIdeal.Launch
import proofs.«423235_j29944511988266_3_alg».proof.Proof.Gen.KernelIdeal.Skeleton
import proofs.«423235_j29944511988266_3_alg».proof.Proof.Gen.KernelIdeal.Points
import Idealize.ShloMosaic.Lib.Pipeline.FrameBody
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem cover0_5 (p0 : Vec F S1024x256 .bf16) (y : S1024x256.Idx) :
    ∃ pc ∈ ([⟨r0_5, p0⟩] : List (View.Piece (Elt F) S1024x256 .bf16)), y ∈ pc.1.set :=
  View.cover_of_tiled [⟨r0_5, p0⟩] S1024x256.size (by rfl) y

theorem cover0_6 (p0 : Vec F S1024x2 .f32) (y : S1024x2.Idx) :
    ∃ pc ∈ ([⟨r0_6, p0⟩] : List (View.Piece (Elt F) S1024x2 .f32)), y ∈ pc.1.set :=
  View.cover_of_tiled [⟨r0_6, p0⟩] S1024x2.size (by rfl) y

set_option maxHeartbeats 1000000 in
theorem sound_kernel0 (c : Dev nD) (E : Set ℕ) (i : grid0.Coords) (arg1 : Memref sig .tc .vmem S1024x256 .bf16) (harg1 : arg1.IsWhole) (arg2 : Memref sig .tc .vmem S256x256 .bf16) (harg2 : arg2.IsWhole) (arg3 : Memref sig .tc .vmem S1x256 .f32) (harg3 : arg3.IsWhole) (arg4 : Memref sig .tc .vmem S2x256 .bf16) (harg4 : arg4.IsWhole) (arg5 : Memref sig .tc .vmem S1x2 .f32) (harg5 : arg5.IsWhole) (arg6 : Memref sig .tc .vmem S1024x256 .bf16) (harg6 : arg6.IsWhole) (arg7 : Memref sig .tc .vmem S1024x2 .f32) (harg7 : arg7.IsWhole)
    (x0 : Vec F S1024x256 .bf16) (x1 : Vec F S256x256 .bf16) (x2 : Vec F S1x256 .f32) (x3 : Vec F S2x256 .bf16) (x4 : Vec F S1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out0_5 x0 x1 x2) ∗ owns (c : Thread nD τ) arg7 fullShare (out0_6 x0 x3 x4)) -∗ K ⟨⟩))
      ⊢ wp frame (wpE (defs₀ (F := F)) Variants.none c none) E (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d
theorem before0_3 (c : Dev nD) (t : Fin cfg0.N) (d) : (dat0 V c).before 3 t d = iblk0 V c 3 t :=
  (dat0 V c).before_in_eq_fetched 3 rfl (fun _ => rfl) (fun _ _ _ => rfl) (fun _ => rfl) t d
theorem before0_4 (c : Dev nD) (t : Fin cfg0.N) (d) : (dat0 V c).before 4 t d = iblk0 V c 4 t :=
  (dat0 V c).before_in_eq_fetched 4 rfl (fun _ => rfl) (fun _ _ _ => rfl) (fun _ => rfl) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _
    (iblk0 V c 0 t) (iblk0 V c 1 t) (iblk0 V c 2 t) (iblk0 V c 3 t) (iblk0 V c 4 t) _)
  iframe H0 H1 H2 H3 H4
  isplitl [H5]; · iexists _; iexact H5
  isplitl [H6]; · iexists _; iexact H6
  iintro ⟨H0, H1, H2, H3, H4, H5, H6⟩
  iframe

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
import proofs.«423235_j29944511988266_3_alg».proof.Proof.KI.Reg1Defs
import proofs.«423235_j29944511988266_3_alg».proof.Proof.KI.Reg0
import proofs.«423235_j29944511988266_3_alg».proof.Proof.Gen.KernelIdeal.Launch
import proofs.«423235_j29944511988266_3_alg».proof.Proof.Gen.KernelIdeal.Skeleton
import proofs.«423235_j29944511988266_3_alg».proof.Proof.Gen.KernelIdeal.Points
import Idealize.ShloMosaic.Lib.Pipeline.FrameBody
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The second projection runs the first one's kernel function.
theorem kernel1_eq : cc1__proj_kernel (F := F) = cc0__proj_kernel (F := F) := rfl

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3 (c : Dev nD) (t : Fin cfg1.N) (d) : (dat1 V c).before 3 t d = iblk1 V c 3 t :=
  (dat1 V c).before_in_eq_fetched 3 rfl (fun _ => rfl) (fun _ _ _ => rfl) (fun _ => rfl) t d
theorem before1_4 (c : Dev nD) (t : Fin cfg1.N) (d) : (dat1 V c).before 4 t d = iblk1 V c 4 t :=
  (dat1 V c).before_in_eq_fetched 4 rfl (fun _ => rfl) (fun _ _ _ => rfl) (fun _ => rfl) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [kernel1_eq]
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _
    (iblk1 V c 0 t) (iblk1 V c 1 t) (iblk1 V c 2 t) (iblk1 V c 3 t) (iblk1 V c 4 t) _)
  iframe H0 H1 H2 H3 H4
  isplitl [H5]; · iexists _; iexact H5
  isplitl [H6]; · iexists _; iexact H6
  iintro ⟨H0, H1, H2, H3, H4, H5, H6⟩
  iframe

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2Kernel.lean ====
import proofs.«423235_j29944511988266_3_alg».proof.Proof.KI.Reg2Defs
import proofs.«423235_j29944511988266_3_alg».proof.Proof.Gen.KernelIdeal.Launch
import proofs.«423235_j29944511988266_3_alg».proof.Proof.Gen.KernelIdeal.Skeleton
import proofs.«423235_j29944511988266_3_alg».proof.Proof.Gen.KernelIdeal.Points
import Idealize.ShloMosaic.Lib.Pipeline.FrameBody
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Reads

variable {sg : RefSig} {κ : Kind} {sp : Space} {Val : EltTy → Type} [∀ e, Nonempty (Val e)]

theorem zeros2 : (![0, 0] : Fin 2 → ℕ) = fun _ => 0 := by funext a; fin_cases a <;> rfl
theorem zeros3 : (![0, 0, 0] : Fin 3 → ℕ) = fun _ => 0 := by funext a; fin_cases a <;> rfl

theorem read_writes_cons_overlay {S : Shape} {e : EltTy} (v : View sg κ sp S e) (f : v.ty.Contents Val) (r : Rect S)
    (w : r.shape.Idx → Val e) (L : List (View.Piece Val S e)) :
    v.read Val (v.writes Val f ((⟨r, w⟩ : View.Piece Val S e) :: L)) = r.overlay (v.read Val (v.writes Val f L)) w := by
  funext y
  by_cases hy : y ∈ r.set
  · obtain ⟨x, rfl⟩ := r.exists_idx_of_mem hy
    rw [show r.idx x = r.emb x from rfl, View.read_writes_cons_emb, Rect.overlay_emb]
  · rw [Rect.overlay_of_not_mem _ _ _ hy, View.writes_cons,
      View.read_slice_write_of_not_mem r _ _ _ (by rwa [Rect.map_emb_univ])]

theorem writes_nil' {S : Shape} {e : EltTy} (v : View sg κ sp S e) (f : v.ty.Contents Val) : v.writes Val f [] = f := rfl

end Reads

section Reads2

variable {sg : RefSig} {κ : Kind} {sp : Space} {Val : EltTy → Type} [∀ e, Nonempty (Val e)]

theorem overlay_unit_zero {S : Shape} {α : Type} {off : Fin S.rank → ℕ} (h : off = fun _ => 0)
    (inb : ∀ a, off a + S.size a ≤ S.size a) (X w : S.Idx → α) : (Rect.unit off S.size inb).overlay X w = w := by
  subst h; funext y
  have e := Rect.overlay_emb (Rect.whole S) X w y
  rw [Rect.emb_whole_apply] at e
  exact e

theorem overlay_whole2 {d : Fin 2 → ℕ} {α : Type} (inb : ∀ a, (![0, 0] : Fin 2 → ℕ) a + d a ≤ d a) (X w : (⟨2, d⟩ : Shape).Idx → α) :
    (Rect.unit (s := ⟨2, d⟩) ![0, 0] d inb).overlay X w = w := overlay_unit_zero (S := ⟨2, d⟩) zeros2 inb X w

theorem overlay_whole3 {d : Fin 3 → ℕ} {α : Type} (inb : ∀ a, (![0, 0, 0] : Fin 3 → ℕ) a + d a ≤ d a) (X w : (⟨3, d⟩ : Shape).Idx → α) :
    (Rect.unit (s := ⟨3, d⟩) ![0, 0, 0] d inb).overlay X w = w := overlay_unit_zero (S := ⟨3, d⟩) zeros3 inb X w

theorem ld_whole2 {d : Fin 2 → ℕ} {e : EltTy} (inb : ∀ a, (![0, 0] : Fin 2 → ℕ) a + d a ≤ d a) (X : (⟨2, d⟩ : Shape).Idx → Val e) :
    View.ld X (Rect.unit (s := ⟨2, d⟩) ![0, 0] d inb) = X := View.ld_unit_zero (S := ⟨2, d⟩) zeros2 inb X

theorem ld_whole3 {d : Fin 3 → ℕ} {e : EltTy} (inb : ∀ a, (![0, 0, 0] : Fin 3 → ℕ) a + d a ≤ d a) (X : (⟨3, d⟩ : Shape).Idx → Val e) :
    View.ld X (Rect.unit (s := ⟨3, d⟩) ![0, 0, 0] d inb) = X := View.ld_unit_zero (S := ⟨3, d⟩) zeros3 inb X

theorem readCov_whole2 {d : Fin 2 → ℕ} {e : EltTy} (v : View sg κ sp ⟨2, d⟩ e) (inb : ∀ a, (![0, 0] : Fin 2 → ℕ) a + d a ≤ d a)
    (w : (⟨2, d⟩ : Shape).Idx → Val e) :
    v.readCov [(⟨Rect.unit (s := ⟨2, d⟩) ![0, 0] d inb, w⟩ : View.Piece Val ⟨2, d⟩ e)] (Rect.unit (s := ⟨2, d⟩) ![0, 0] d inb).toLoadRect = w :=
  View.readCov_unit_zero (S := ⟨2, d⟩) v zeros2 inb w

end Reads2

section Reads3

variable {Val : EltTy → Type} [∀ e, Nonempty (Val e)]

theorem canon_whole3 {d : Fin 3 → ℕ} {e : EltTy} (inb : ∀ a, (![0, 0, 0] : Fin 3 → ℕ) a + d a ≤ d a) (w : (⟨3, d⟩ : Shape).Idx → Val e) :
    View.canon [(⟨Rect.unit (s := ⟨3, d⟩) ![0, 0, 0] d inb, w⟩ : View.Piece Val ⟨3, d⟩ e)] = w :=
  View.canon_unit_zero (S := ⟨3, d⟩) zeros3 inb w

end Reads3

def rowLeft2 (i : grid2.Coords) (d5 : Vec F S1x1024x1 .f32) (s' : Scr2 F) : Vec F S1x1024x1 .f32 :=
  if k2_cond3 i = 1#1 then View.canon [⟨rowRect2, k2_pay21 s'.rm s'.rl⟩] else d5

def colLeft2 (i : grid2.Coords) (d6 : Vec F S1x1x4096 .f32) (s' : Scr2 F) : Vec F S1x1x4096 .f32 :=
  if k2_cond4 i = 1#1 then View.canon [⟨colOutRect2, k2_pay1 s'.cm s'.cl⟩] else d6

theorem cases2 : ∀ i : grid2.Coords,
    (condJ0 i ∧ condIJ0 i ∧ ¬k2_cond3 i = 1#1 ∧ ¬k2_cond4 i = 1#1) ∨ (condJ0 i ∧ ¬condIJ0 i ∧ ¬k2_cond3 i = 1#1 ∧ ¬k2_cond4 i = 1#1)
    ∨ (¬condJ0 i ∧ ¬condIJ0 i ∧ ¬k2_cond3 i = 1#1 ∧ ¬k2_cond4 i = 1#1) ∨ (¬condJ0 i ∧ ¬condIJ0 i ∧ k2_cond3 i = 1#1 ∧ ¬k2_cond4 i = 1#1)
    ∨ (¬condJ0 i ∧ ¬condIJ0 i ∧ k2_cond3 i = 1#1 ∧ k2_cond4 i = 1#1) := by decide +kernel

set_option maxHeartbeats 4000000 in
theorem sound_kernel2 (c : Dev nD) (E : Set ℕ) (i : grid2.Coords) (arg3 : Memref sig .tc .vmem S1x1024x256 .bf16) (harg3 : arg3.IsWhole) (arg4 : Memref sig .tc .vmem S1x1024x256 .bf16) (harg4 : arg4.IsWhole) (arg5 : Memref sig .tc .vmem S1x1024x1 .f32) (harg5 : arg5.IsWhole) (arg6 : Memref sig .tc .vmem S1x1x4096 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1x4096 .f32) (harg9 : arg9.IsWhole) (arg10 : Memref sig .tc .vmem S1x4096 .f32) (harg10 : arg10.IsWhole)
    (x0 x1 : Vec F S1x1024x256 .bf16) (s : Scr2 F) (d5 : Vec F S1x1024x1 .f32) (d6 : Vec F S1x1x4096 .f32) (K : PUnit → sProp 𝕄) :
    iprop(owns (c : Thread nD τ) arg3 fullShare x0 ∗ owns (c : Thread nD τ) arg4 fullShare x1
        ∗ owns (c : Thread nD τ) arg5 fullShare d5 ∗ owns (c : Thread nD τ) arg6 fullShare d6
        ∗ owns (c : Thread nD τ) arg7 fullShare s.rm ∗ owns (c : Thread nD τ) arg8 fullShare s.rl
        ∗ owns (c : Thread nD τ) arg9 fullShare s.cm ∗ owns (c : Thread nD τ) arg10 fullShare s.cl
        ∗ (iprop(owns (c : Thread nD τ) arg3 fullShare x0 ∗ owns (c : Thread nD τ) arg4 fullShare x1
            ∗ owns (c : Thread nD τ) arg5 fullShare (rowLeft2 i d5 (step2 i x0 x1 s))
            ∗ owns (c : Thread nD τ) arg6 fullShare (colLeft2 i d6 (step2 i x0 x1 s))
            ∗ owns (c : Thread nD τ) arg7 fullShare (step2 i x0 x1 s).rm
            ∗ owns (c : Thread nD τ) arg8 fullShare (step2 i x0 x1 s).rl
            ∗ owns (c : Thread nD τ) arg9 fullShare (step2 i x0 x1 s).cm
            ∗ owns (c : Thread nD τ) arg10 fullShare (step2 i x0 x1 s).cl) -∗ K ⟨⟩))
      ⊢ wp frame (wpE (defs₀ (F := F)) Variants.none c none) E (cc2__stats_kernel i arg3 harg3 arg4 harg4 arg5 harg5 arg6 harg6 arg7 harg7 arg8 harg8 arg9 harg9 arg10 harg10) K := by
  obtain ⟨x7, x8, x9, x10⟩ := s
  have hJ : ((i 2).val = 0) = condJ0 i := propext (condJ0_iff i).symm
  have hIJ : ((i 1).val = 0 ∧ (i 2).val = 0) = condIJ0 i := propext (condIJ0_iff i).symm
  have h5 := cases2 i
  simp only [cc2__stats_kernel_eq_skeleton]; unfold cc2__stats_kernel_skel
  unfold owns
  iintro ⟨⟨%f0, %hf0, H0⟩, ⟨%f1, %hf1, H1⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf0 hf1 hf5 hf6 hf7 hf8 hf9 hf10
  rcases h5 with ⟨hc0, hc1, hc3, hc4⟩ | ⟨hc0, hc1, hc3, hc4⟩ | ⟨hc0, hc1, hc3, hc4⟩ | ⟨hc0, hc1, hc3, hc4⟩ | ⟨hc0, hc1, hc3, hc4⟩ <;>
  · sl_exec (disch := first | exact hc0 | exact hc1 | exact hc3 | exact hc4)
    sl_step
    iapply Hk
    isplitl [H0]
    · iexists f0; isplitr; · ipureintro; rfl
      iexact H0
    isplitl [H1]
    · iexists f1; isplitr; · ipureintro; rfl
      iexact H1
    isplitl [H5]; iexists _; isplitr; swap; iexact H5; swap
    isplitl [H6]; iexists _; isplitr; swap; iexact H6; swap
    isplitl [H7]; iexists _; isplitr; swap; iexact H7; swap
    isplitl [H8]; iexists _; isplitr; swap; iexact H8; swap
    isplitl [H9]; iexists _; isplitr; swap; iexact H9; swap
    iexists _; isplitr; swap; iexact H10
    all_goals
      ipureintro
      sl_unfold_run_names
      simp only [step2, rowLeft2, colLeft2, hIJ]
      simp only [hJ, condJ0, condIJ0, hc0, hc1, hc3, hc4, eq_self, if_true, if_false, colRect2, rowRect2, colOutRect2, read_writes_cons_overlay, writes_nil',
        View.readAt_eq_ld, overlay_whole2, overlay_whole3, ld_whole2, ld_whole3, readCov_whole2, canon_whole3]

end Cert.KernelIdeal.Hand

end
-- ==== Proof.KI.Reg2.lean ====
import proofs.«423235_j29944511988266_3_alg».proof.Proof.KI.Reg2Defs
import proofs.«423235_j29944511988266_3_alg».proof.Proof.KI.Reg2Kernel
import Idealize.ShloMosaic.Lib.Pipeline.FrameBody
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d

theorem hcond2_3 : ∀ t : Fin cfg2.N, k2_cond3 (grid2.coords t) = 1#1 ↔ t.val % 4 = 3 :=
  (by decide +kernel : ∀ t : Fin grid2.N, k2_cond3 (grid2.coords t) = 1#1 ↔ t.val % 4 = 3)
theorem hcond2_4 : ∀ t : Fin cfg2.N, k2_cond4 (grid2.coords t) = 1#1 ↔ t.val % 16 = 15 :=
  (by decide +kernel : ∀ t : Fin grid2.N, k2_cond4 (grid2.coords t) = 1#1 ↔ t.val % 16 = 15)

theorem coords2_first : ∀ t : Fin cfg2.N, t.val = 0 → ((grid2.coords t) 1).val = 0 ∧ ((grid2.coords t) 2).val = 0 :=
  (by decide +kernel : ∀ t : Fin grid2.N, t.val = 0 → ((grid2.coords t) 1).val = 0 ∧ ((grid2.coords t) 2).val = 0)

theorem liveAt2_0 : ∀ t : Fin cfg2.N, cfg2.idle 0 (grid2.coords t) = false := fun _ => rfl
theorem liveAt2_1 : ∀ t : Fin cfg2.N, cfg2.idle 1 (grid2.coords t) = false := fun _ => rfl

theorem idleAt2_2 : ∀ t : Fin cfg2.N, ¬ t.val % 4 = 3 → cfg2.idle 2 (grid2.coords t) = true :=
  (by decide +kernel : ∀ t : Fin grid2.N, ¬ t.val % 4 = 3 → cfg2.idle 2 (grid2.coords t) = true)
theorem liveAt2_2 : ∀ t : Fin cfg2.N, t.val % 4 = 3 → cfg2.idle 2 (grid2.coords t) = false :=
  (by decide +kernel : ∀ t : Fin grid2.N, t.val % 4 = 3 → cfg2.idle 2 (grid2.coords t) = false)
theorem noFlush2_2 (t : Fin cfg2.N) (h : ¬ t.val % 4 = 3) : (cfg2.win 2).flush t = false := by
  cases hf : (cfg2.win 2).flush t
  · rfl
  · exact absurd ((flush2_2 t).mp hf) h

theorem idleAt2_3 : ∀ t : Fin cfg2.N, ¬ t.val % 16 = 15 → cfg2.idle 3 (grid2.coords t) = true :=
  (by decide +kernel : ∀ t : Fin grid2.N, ¬ t.val % 16 = 15 → cfg2.idle 3 (grid2.coords t) = true)
theorem liveAt2_3 : ∀ t : Fin cfg2.N, t.val % 16 = 15 → cfg2.idle 3 (grid2.coords t) = false :=
  (by decide +kernel : ∀ t : Fin grid2.N, t.val % 16 = 15 → cfg2.idle 3 (grid2.coords t) = false)
theorem noFlush2_3 (t : Fin cfg2.N) (h : ¬ t.val % 16 = 15) : (cfg2.win 3).flush t = false := by
  cases hf : (cfg2.win 3).flush t
  · rfl
  · exact absurd ((flush2_3 t).mp hf) h

theorem scrAt2_first (c : Dev nD) (t : Fin cfg2.N) (hz : t.val = 0) (s : Scr2 F) :
    scrAt2 V c t.val t.isLt = step2 (grid2.coords t) (iblk2 V c 0 t) (iblk2 V c 1 t) s := by
  have h := coords2_first t hz
  obtain ⟨n, hn⟩ := t
  obtain rfl : n = 0 := hz
  exact step2_reset _ _ _ _ _ h.1 h.2

theorem leaves2_2 (c : Dev nD) (t : Fin cfg2.N) (s' : Scr2 F) (hs' : scrAt2 V c t.val t.isLt = s') (e) :
    owns (c : Thread nD τ) (st2_2 t) fullShare (rowLeft2 (grid2.coords t) ((dat2 V c).before 2 t e) s')
      ⊢ ((dat2 V c).leavesExact 2 t : sProp 𝕄) := by
  subst hs'
  by_cases h3 : t.val % 4 = 3
  · rw [show (dat2 V c).leavesExact 2 t = owns (c : Thread nD τ) (st2_2 t) fullShare ((dat2 V c).after 2 t) from by
      unfold Dat.leavesExact; rw [liveAt2_2 t h3], after2_2]
    unfold rowLeft2 rowOut2
    rw [if_pos ((hcond2_3 t).mpr h3)]
  · rw [Dat.leavesExact_idle (dat2 V c) 2 t (idleAt2_2 t h3) (noFlush2_2 t h3)]
    unfold rowLeft2
    rw [if_neg (fun h => h3 ((hcond2_3 t).mp h))]
    iintro H; iexists _; iexact H

theorem leaves2_3 (c : Dev nD) (t : Fin cfg2.N) (s' : Scr2 F) (hs' : scrAt2 V c t.val t.isLt = s') (e) :
    owns (c : Thread nD τ) (st2_3 t) fullShare (colLeft2 (grid2.coords t) ((dat2 V c).before 3 t e) s')
      ⊢ ((dat2 V c).leavesExact 3 t : sProp 𝕄) := by
  subst hs'
  by_cases h4 : t.val % 16 = 15
  · rw [show (dat2 V c).leavesExact 3 t = owns (c : Thread nD τ) (st2_3 t) fullShare ((dat2 V c).after 3 t) from by
      unfold Dat.leavesExact; rw [liveAt2_3 t h4], after2_3]
    unfold colLeft2 colOut2
    rw [if_pos ((hcond2_4 t).mpr h4)]
  · rw [Dat.leavesExact_idle (dat2 V c) 3 t (idleAt2_3 t h4) (noFlush2_3 t h4)]
    unfold colLeft2
    rw [if_neg (fun h => h4 ((hcond2_4 t).mp h))]
    iintro H; iexists _; iexact H

theorem sound_point2 (c : Dev nD) (t : Fin cfg2.N) (s : Scr2 F)
    (hs : scrAt2 V c t.val t.isLt = step2 (grid2.coords t) (iblk2 V c 0 t) (iblk2 V c 1 t) s) :
    iprop(iprop(ownsScr2 c s ∗ restBut2 c ∗ (∃ r, prngReg c r)) ∗ (dat2 V c).owesAt () t.castSucc
        ∗ owns (c : Thread nD τ) (st2_0 t) fullShare (iblk2 V c 0 t)
        ∗ owns (c : Thread nD τ) (st2_1 t) fullShare (iblk2 V c 1 t)
        ∗ (∃ d, owns (c : Thread nD τ) (st2_2 t) fullShare ((dat2 V c).before 2 t d))
        ∗ (∃ d, owns (c : Thread nD τ) (st2_3 t) fullShare ((dat2 V c).before 3 t d)))
      ⊢ wp frame (wpE (defs₀ (F := F)) Variants.none c none) Set.univ (bodyAt2 t) (fun _ =>
          iprop(iprop(ownsScr2 c (scrAt2 V c t.val t.isLt) ∗ restBut2 c ∗ (∃ r, prngReg c r)) ∗ (dat2 V c).owesAt () t.castSucc
            ∗ owns (c : Thread nD τ) (st2_0 t) fullShare (iblk2 V c 0 t)
            ∗ owns (c : Thread nD τ) (st2_1 t) fullShare (iblk2 V c 1 t)
            ∗ (dat2 V c).leavesExact 2 t ∗ (dat2 V c).leavesExact 3 t)) := by
  rw [hs]
  unfold bodyAt2
  dsimp only [ownsScr2]
  iintro ⟨⟨⟨H7, H8, H9, H10⟩, Hrest, Hg⟩, Ho, H0, H1, ⟨%e2, H2⟩, ⟨%e3, H3⟩⟩
  iapply (sound_kernel2 c Set.univ (grid2.coords t) _ _ _ _ _ _ _ _ _ _ _ _ _ _ _ _ (iblk2 V c 0 t) (iblk2 V c 1 t) s
    ((dat2 V c).before 2 t e2) ((dat2 V c).before 3 t e3) _)
  iframe H0 H1 H2 H3 H7 H8 H9 H10
  iintro ⟨H0, H1, H2, H3, H7, H8, H9, H10⟩
  iframe H7 H8 H9 H10 Hrest Hg Ho H0 H1
  isplitl [H2]
  · iapply (leaves2_2 V c t _ hs e2); iexact H2
  iapply (leaves2_3 V c t _ hs e3); iexact H3

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2
  simp only [before2_0, before2_1]
  rw [show (dat2 V c).owesAt () t.succ = (dat2 V c).owesAt () t.castSucc from rfl]
  rw [PhiS2_succ' V c t, PhiS2_succ, PhiS2_castSucc]
  rw [show (dat2 V c).leavesExact 0 t = owns (c : Thread nD τ) (st2_0 t) fullShare ((dat2 V c).after 0 t) from by
      unfold Dat.leavesExact; rw [liveAt2_0 t], after2_0]
  rw [show (dat2 V c).leavesExact 1 t = owns (c : Thread nD τ) (st2_1 t) fullShare ((dat2 V c).after 1 t) from by
      unfold Dat.leavesExact; rw [liveAt2_1 t], after2_1]
  by_cases hz : t.val = 0
  · rw [PhiS2_zero V c _ _ hz, PhiA2_eq]
    iintro ⟨⟨⟨⟨⟨%d0, H7⟩, ⟨%d1, H8⟩, ⟨%d2, H9⟩, ⟨%d3, H10⟩⟩, Hrest⟩, Hg⟩, Ho, ⟨%e0, H0⟩, ⟨%e1, H1⟩, H2, H3⟩
    iapply (sound_point2 V c t ⟨d0, d1, d2, d3⟩ (scrAt2_first V c t hz _))
    dsimp only [ownsScr2]
    iframe
  · rw [PhiS2_pos V c _ _ hz]
    iintro ⟨HΦ, Ho, ⟨%e0, H0⟩, ⟨%e1, H1⟩, H2, H3⟩
    iapply (sound_point2 V c t _ (scrAt2_pos V c t hz))
    iframe

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]

theorem hout2 (c : Dev nD) : (dat2 V c).Φ (Fin.last cfg2.N) ⊢ Pipeline.ΦA spec2 c := by
  have hN : (Fin.last cfg2.N).val ≠ 0 := by rw [Fin.val_last]; have : cfg2.N = 64 := N_2; omega
  rw [show (dat2 V c).Φ (Fin.last cfg2.N) = PhiS2 V c (Fin.last cfg2.N).val (Nat.le_of_lt_succ (Fin.last cfg2.N).isLt) from rfl,
    PhiS2_pos V c _ _ hN, PhiA2_eq]
  dsimp only [ownsScr2]
  iintro ⟨⟨H7, H8, H9, H10⟩, Hrest, Hg⟩
  isplitl [H7 H8 H9 H10 Hrest]
  · isplitl [H7 H8 H9 H10]
    · isplitl [H7]; · iexists _; iexact H7
      isplitl [H8]; · iexists _; iexact H8
      isplitl [H9]; · iexists _; iexact H9
      iexists _; iexact H10
    iexact Hrest
  iexact Hg

end Cert.KernelIdeal.Hand

end
-- ==== Proof.KI.Reg3.lean ====
import proofs.«423235_j29944511988266_3_alg».proof.Proof.KI.Reg3Defs
import proofs.«423235_j29944511988266_3_alg».proof.Proof.Gen.KernelIdeal.Launch
import proofs.«423235_j29944511988266_3_alg».proof.Proof.Gen.KernelIdeal.Skeleton
import proofs.«423235_j29944511988266_3_alg».proof.Proof.Gen.KernelIdeal.Points
import Idealize.ShloMosaic.Lib.Pipeline.FrameBody
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem cover3_o (p : Vec F S1x1024x512 .f32) (y : S1x1024x512.Idx) :
    ∃ pc ∈ ([⟨r3_o, p⟩] : List (View.Piece (Elt F) S1x1024x512 .f32)), y ∈ pc.1.set :=
  View.cover_of_tiled [⟨r3_o, p⟩] S1x1024x512.size (by rfl) y

set_option maxHeartbeats 1000000 in
theorem sound_kernel3 (c : Dev nD) (E : Set ℕ) (i : grid3.Coords) (arg3 : Memref sig .tc .vmem S1x1024x256 .bf16) (harg3 : arg3.IsWhole) (arg4 : Memref sig .tc .vmem S1x512x256 .bf16) (harg4 : arg4.IsWhole) (arg5 : Memref sig .tc .vmem S1x1024x1 .f32) (harg5 : arg5.IsWhole) (arg6 : Memref sig .tc .vmem S1x1x512 .f32) (harg6 : arg6.IsWhole) (arg7 : Memref sig .tc .vmem S1x1024x512 .f32) (harg7 : arg7.IsWhole) (arg8 : Memref sig .tc .vmem S1x1024x512 .f32) (harg8 : arg8.IsWhole)
    (x0 : Vec F S1x1024x256 .bf16) (x1 : Vec F S1x512x256 .bf16) (x2 : Vec F S1x1024x1 .f32) (x3 : Vec F S1x1x512 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ (∃ d, owns (c : Thread nD τ) arg7 fullShare d) ∗ (∃ d, owns (c : Thread nD τ) arg8 fullShare d)
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (out3_4 x0 x1 x2) ∗ owns (c : Thread nD τ) arg8 fullShare (out3_5 x0 x1 x3)) -∗ K ⟨⟩))
      ⊢ wp frame (wpE (defs₀ (F := F)) Variants.none c none) E (cc3__norm_kernel i arg3 harg3 arg4 harg4 arg5 harg5 arg6 harg6 arg7 harg7 arg8 harg8) K := by
  simp only [cc3__norm_kernel_eq_skeleton]; unfold cc3__norm_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover3_o _)
  iexists _; isplitr
  swap; · iexact H5
  ipureintro
  exact View.read_writes_eq_canon _ _ _ (cover3_o _)

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d
theorem before3_2 (c : Dev nD) (t : Fin cfg3.N) (d) : (dat3 V c).before 2 t d = iblk3 V c 2 t :=
  (dat3 V c).before_in_eq_fetched 2 rfl (fun _ => rfl) (fun _ _ _ => rfl) (fun _ => rfl) t d
theorem before3_3 (c : Dev nD) (t : Fin cfg3.N) (d) : (dat3 V c).before 3 t d = iblk3 V c 3 t :=
  (dat3 V c).before_in_eq_fetched 3 rfl (fun _ => rfl) (fun _ _ _ => rfl) (fun _ => rfl) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) _)
  iframe H0 H1 H2 H3
  isplitl [H4]; · iexists _; iexact H4
  isplitl [H5]; · iexists _; iexact H5
  iintro ⟨H0, H1, H2, H3, H4, H5⟩
  iframe

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Run.lean ====
import proofs.«423235_j29944511988266_3_alg».proof.Proof.KI.Fold
import proofs.«423235_j29944511988266_3_alg».proof.Proof.KI.Reg0
import proofs.«423235_j29944511988266_3_alg».proof.Proof.KI.Reg1
import proofs.«423235_j29944511988266_3_alg».proof.Proof.KI.Reg2
import proofs.«423235_j29944511988266_3_alg».proof.Proof.KI.Reg3
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev adm : (p : Fin 4) → (pcfgs (F := F) p).Adm := fun p => (cfgs p).toPCfg_adm

def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V6 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W7 m ρ c) ∗ ∃ r, prngReg c r)

-- One construction serves all four regions: only the contents at entry and exit, the body's obligation and the invariant's two ends differ.
set_option backward.isDefEq.respectTransparency.types false in
def regSeg (p : Fin 4) (launch : Pipeline.LaunchFacts (nD := nD) (τ := τ) cfgs p) (Win Wout : Dev nD → Valuation τ sig (Elt F))
    (hbody : ∀ c, Pipeline.BodyObligationLoose (pdats m ρ p c) (defs₀ (F := F)) 𝒱₀ () Set.univ)
    (howed : ∀ (c : Dev nD) t, (pdats m ρ p c).owed t = 0) (hrec : ∀ c : Dev nD, (pdats m ρ p c).recorded 0 = Set.univ)
    (hq : ∀ (c : Dev nD) w, (pdats m ρ p c).q w = fullShare)
    (hA : ∀ (c : Dev nD) w, (pdats m ρ p c).A w = Win c (Proc.devRef .tc (Pipeline.arrRef (cfgs p).spec w)))
    (hF : ∀ (c : Dev nD) w, Wout c (Proc.devRef .tc (Pipeline.arrRef (cfgs p).spec w)) = (pdats m ρ p c).arrAt w (cfgs p).N)
    (hrest : ∀ (c : Dev nD) (b : Ref sig .tc), (∀ w, Pipeline.arrRef (cfgs p).spec w ≠ b) → Wout c (Proc.devRef .tc b) = Win c (Proc.devRef .tc b))
    (hin : ∀ c : Dev nD, (Pipeline.ΦA (cfgs p).spec c : sProp 𝕄) ⊢ (pdats m ρ p c).Φ 0)
    (hout : ∀ c : Dev nD, (pdats m ρ p c).Φ (Fin.last (cfgs p).N) ⊢ (Pipeline.ΦA (cfgs p).spec c : sProp 𝕄))
    (post : Dev nD → sProp 𝕄) (hpost : ∀ c : Dev nD, iprop(StableHlo.held (c : Thread nD τ) (Pipeline.ucRefs τ sig) (Wout c) ∗ R c) ⊢ post c) :
    Pipeline.RegionSeg (pcfgs (F := F)) adm (pdats m ρ) () defs₀ 𝒱₀ L lv p where
  win := launch.win.to₀
  block_pos := launch.block_pos
  stage_whole := launch.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Win c) ∗ R c)
  post := post
  X c := iprop(∃ r, prngReg c r)
  Y c := iprop(∃ r, prngReg c r)
  Z c := Pipeline.unscopedRest (Ix := Unit) (Name := ℕ) (U := UR sig nD τ) (Lvl := ℕ) (cfgs p).spec c fun b => Win c (Proc.devRef .tc b)
  hentry c := by
    rw [Pipeline.ownSems0_none]
    have hsplit := Pipeline.arrays_of_unscopedBufs (p := p) (pcfgs (F := F)) adm (pdats m ρ) launch.win launch.arr_whole c
      ((pdats m ρ p c).share_full (hq c)) (fun b => Win c (Proc.devRef .tc b)) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun _ _ => Or.inl (by rw [hrec c]; trivial)
      iexact HO
    isplitl [Hp]; · iexact Hp
    iexact Hrest
  hin c := by
    have h := hin c
    unfold Pipeline.ΦA at h
    iintro ⟨Hp, -, Hr⟩
    iapply h
    isplitl [Hr]; · iexact Hr
    iexact Hp
  hout c := by
    have h := hout c
    unfold Pipeline.ΦA at h
    rw [Pipeline.ownSems0_none]
    iintro Hphi
    ihave H := h $$ Hphi
    icases H with ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c (pdats m ρ) ((pdats m ρ p c).share_full (hq c))
      (fun b => Win c (Proc.devRef .tc b)) (fun b => Wout c (Proc.devRef .tc b)) ((pdats m ρ p c).arrAt · (cfgs p).N) (fun w => (hF c w).symm)
      fun b hb => hrest c b fun w e => hb (Finset.mem_image.mpr ⟨w, Finset.mem_univ _, e⟩)
    rw [Pipeline.unscopedBufs_held] at hjoin
    iintro ⟨Ha, HO, HY, Hrest⟩
    imodintro
    iapply (hpost c)
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

abbrev reg0 := regSeg m ρ 0 launch0 (W1 m ρ) (W2 m ρ) (fun c => (body_obligation0 (V1 m ρ) c).loose) (fun _ _ => rfl) (fun _ => rfl) (fun _ _ => rfl)
  (fun _ _ => rfl) (W2_arr m ρ) (W2_of_ne m ρ) (fun _ => .rfl) (fun _ => .rfl) _ (fun _ => .rfl)
abbrev reg1 := regSeg m ρ 1 launch1 (W3 m ρ) (W4 m ρ) (fun c => (body_obligation1 (V3 m ρ) c).loose) (fun _ _ => rfl) (fun _ => rfl) (fun _ _ => rfl)
  (fun _ _ => rfl) (W4_arr m ρ) (W4_of_ne m ρ) (fun _ => .rfl) (fun _ => .rfl) _ (fun _ => .rfl)
abbrev reg2 := regSeg m ρ 2 launch2 (W5 m ρ) (W6 m ρ) (fun c => (body_obligation2 (V5 m ρ) c).loose) (fun _ _ => rfl) (fun _ => rfl) (fun _ _ => rfl)
  (fun _ _ => rfl) (W6_arr m ρ) (W6_of_ne m ρ) (hin2 (V5 m ρ)) (hout2 (V5 m ρ)) _ (fun _ => .rfl)
abbrev reg3 := regSeg m ρ 3 launch3 (W6 m ρ) (W7 m ρ) (fun c => (body_obligation3 (V6 m ρ) c).loose) (fun _ _ => rfl) (fun _ => rfl) (fun _ _ => rfl)
  (fun _ _ => rfl) (W7_arr m ρ) (W7_of_ne m ρ) (fun _ => .rfl) (fun _ => .rfl)
  (fun c => iprop(Tₙ m ρ c ∗ ∃ W, owes (c : Thread nD τ) (0 : CellTallies nD τ sig Unit) W)) (fun _ => sep_assoc.2)

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .region (reg3 m ρ) ]

theorem main_run (c : Dev nD) : main (F := F) c = Pipeline.Seg.run (segs m ρ) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

theorem run_at : θ_run defs (onTc (τ := τ) (main (F := F))) ⟨m, fun _ => 0, ρ⟩ (fun r => ∀ c : Dev nD,
      (∀ (b : Ref sig .tc), ¬ (Proc.devRef .tc b : DevRef τ sig).isScoped → r.2.mem ((c.tc : Thread nD τ).loc b) = W7 m ρ c (Proc.devRef .tc b))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    have k (b : Ref sig .tc) (hb : ¬ (Proc.devRef .tc b : DevRef τ sig).isScoped) (hk : Untouched b) :
        r.2.mem ((c.tc : Thread nD τ).loc b) = m ((c.tc : Thread nD τ).loc b) :=
      (h c _ (mem_uc b hb)).trans (W7_keep m ρ c b hk)
    ⟨fun b hb => h c _ (mem_uc b hb), k main_arg0 (by decide) (by decide), k main_arg1 (by decide) (by decide),
      k main_arg2 (by decide) (by decide), k main_arg3 (by decide) (by decide), k main_arg4 (by decide) (by decide),
      k main_arg5 (by decide) (by decide)⟩)
    (run_all m ρ)

end Cert.KernelIdeal.Hand

end
-- ==== Proof.SameProgram.lean ====
import proofs.«423235_j29944511988266_3_alg».proof.Defs
import proofs.«423235_j29944511988266_3_alg».proof.Proof.Gen.Kernel
import proofs.«423235_j29944511988266_3_alg».proof.Proof.Gen.Kernel.Launch
import proofs.«423235_j29944511988266_3_alg».proof.Proof.Gen.Pre_finite_inputs
import proofs.«423235_j29944511988266_3_alg».proof.Proof.KI.Run

set_option maxHeartbeats 4000000

noncomputable section

namespace Cert.Proof

open Idealize.ShloMosaic Idealize.ShloMosaic.TcCoe Idealize.SL.Sem

variable {F : FTy → Type} [FloatOps F]

-- The program and its idealized printing are the same text: label by label the kernels' bodies coincide.
theorem defs₀_eq : Cert.Kernel.defs₀ (F := F) = Cert.KernelIdeal.defs₀ (F := F) :=
  congrArg Defs.onTc (funext fun ℓ => funext fun x => by
    match ℓ, x with
    | ⟨0, _⟩, (t, s) => rfl
    | ⟨1, _⟩, (t, s) => rfl
    | ⟨2, _⟩, (t, s) => rfl
    | ⟨3, _⟩, (t, s) => rfl)

theorem defs_eq : Cert.Kernel.defs (F := F) = Cert.KernelIdeal.defs (F := F) :=
  congrArg (Pipeline.defs Cert.KernelIdeal.pcfgs) defs₀_eq

-- Both @main are the same chain of host stretches and calls.
theorem main_eq : Cert.Kernel.main (F := F) = Cert.KernelIdeal.main (F := F) :=
  funext fun c => (Cert.Kernel.Gen.main_chain c).trans (Cert.KernelIdeal.Gen.main_chain c).symm

-- So the run proved once, at any instance, is also the first program's.
theorem frame_k : Cert.frame_Kernel := fun m ρ _ => by
  rw [defs_eq, main_eq]
  exact (θ_run _ _ _).mono (fun _ h c => (h c).2) (Cert.KernelIdeal.Hand.run_at (F := Bits) m ρ)

end Cert.Proof

end
-- ==== Proof.Val.Ref.lean ====
import proofs.«423235_j29944511988266_3_alg».proof.Defs
import proofs.«423235_j29944511988266_3_alg».proof.Proof.Gen.ReferenceIdeal.Run
import proofs.«423235_j29944511988266_3_alg».proof.Proof.Gen.ReferenceIdeal.Read
import proofs.«423235_j29944511988266_3_alg».proof.Proof.Gen.Pre_finite_inputs
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx Cert.ReferenceIdeal.Read

def lin {E : Nat} (desc : FVec Ideal S4x4096x256 .f32) (w : FVec Ideal ⟨2, ![E, 256]⟩ .f32) (β : FVec Ideal ⟨1, ![E]⟩ .f32)
    (b : Fin 4) (m : Fin 4096) (e : Fin E) : EReal :=
  (∑ d : Fin 256, desc (ix3 b m d) * w (ix2 e d)) + β (ix1 e)

def mdesc (desc : FVec Ideal S4x4096x256 .f32) (w : FVec Ideal S256x256 .f32) (β : FVec Ideal S256 .f32)
    (b : Fin 4) (m : Fin 4096) (e : Fin 256) : EReal :=
  Ideal.div (lin desc w β b m e) (Ideal.ofBits .f32 0x40800000#32)

def sim (a0 a1 : FVec Ideal S4x4096x256 .f32) (a2 : FVec Ideal S256x256 .f32) (a3 : FVec Ideal S256 .f32)
    (b : Fin 4) (m n : Fin 4096) : EReal :=
  ∑ d : Fin 256, mdesc a0 a2 a3 b m d * mdesc a1 a2 a3 b n d

def rowmax (a0 a1 : FVec Ideal S4x4096x256 .f32) (a2 : FVec Ideal S256x256 .f32) (a3 : FVec Ideal S256 .f32)
    (b : Fin 4) (m : Fin 4096) : EReal :=
  (Finset.univ : Finset (Fin 4096)).fold max ⊥ (fun n => sim a0 a1 a2 a3 b m n)

def colmax (a0 a1 : FVec Ideal S4x4096x256 .f32) (a2 : FVec Ideal S256x256 .f32) (a3 : FVec Ideal S256 .f32)
    (b : Fin 4) (n : Fin 4096) : EReal :=
  (Finset.univ : Finset (Fin 4096)).fold max ⊥ (fun m => sim a0 a1 a2 a3 b m n)

def p01 (a0 a1 : FVec Ideal S4x4096x256 .f32) (a2 : FVec Ideal S256x256 .f32) (a3 : FVec Ideal S256 .f32)
    (b : Fin 4) (m n : Fin 4096) : EReal :=
  Ideal.div (Ideal.exp (sim a0 a1 a2 a3 b m n - rowmax a0 a1 a2 a3 b m))
    (∑ n' : Fin 4096, Ideal.exp (sim a0 a1 a2 a3 b m n' - rowmax a0 a1 a2 a3 b m))

def p10 (a0 a1 : FVec Ideal S4x4096x256 .f32) (a2 : FVec Ideal S256x256 .f32) (a3 : FVec Ideal S256 .f32)
    (b : Fin 4) (m n : Fin 4096) : EReal :=
  Ideal.div (Ideal.exp (sim a0 a1 a2 a3 b m n - colmax a0 a1 a2 a3 b n))
    (∑ m' : Fin 4096, Ideal.exp (sim a0 a1 a2 a3 b m' n - colmax a0 a1 a2 a3 b n))

section Stages

variable (a0 a1 : FVec Ideal S4x4096x256 .f32) (a2 : FVec Ideal S256x256 .f32) (a3 : FVec Ideal S256 .f32)
  (a4 : FVec Ideal S2x256 .f32) (a5 : FVec Ideal S2 .f32)

theorem ofBits_ninf : Ideal.ofBits .f32 0xFF800000#32 = (⊥ : EReal) := by
  simp [Ideal.ofBits, Ideal.ieee]

theorem v5_at (b : Fin 4) (m : Fin 4096) (e : Fin 256) :
    val_main_v5 (F := Ideal) a0 a2 a3 (ix3 b m e) = mdesc a0 a2 a3 b m e := by
  have el : ∀ k : Fin 256, lidx_main_v0 (ix3 b m e) k = ix3 b m k := fun k => eq_ix3 _
  have er : ∀ k : Fin 256, ridx_main_v0 (ix3 b m e) k = ix2 e k := fun k => eq_ix2 _
  have eb : idx_main_v1 (idx_main_v2 (ix3 b m e)) = ix1 e := eq_ix1 _
  rw [val_main_v5_apply, val_main_v3_apply, val_main_v0_apply, val_main_v2_apply, val_main_v1_apply, val_main_v4_apply,
    val_main_cst_apply, eb]
  simp only [el, er]
  rfl

theorem v11_at (b : Fin 4) (n : Fin 4096) (e : Fin 256) :
    val_main_v11 (F := Ideal) a1 a2 a3 (ix3 b n e) = mdesc a1 a2 a3 b n e :=
  v5_at a1 a2 a3 b n e

theorem v12_at (b : Fin 4) (m n : Fin 4096) :
    val_main_v12 (F := Ideal) a0 a1 a2 a3 (ix3 b m n) = sim a0 a1 a2 a3 b m n := by
  have el : ∀ k : Fin 256, lidx_main_v12 (ix3 b m n) k = ix3 b m k := fun k => eq_ix3 _
  have er : ∀ k : Fin 256, ridx_main_v12 (ix3 b m n) k = ix3 b n k := fun k => eq_ix3 _
  rw [val_main_v12_apply]
  simp only [el, er, v5_at, v11_at]
  rfl

theorem v15_at (b : Fin 4) (m : Fin 4096) :
    val_main_v15 (F := Ideal) a0 a1 a2 a3 (ix2 b m) = rowmax a0 a1 a2 a3 b m := by
  have h : S4x4096x4096.Reduces [2] S4x4096 := by decide
  have e13 : val_main_v13 (F := Ideal) a0 a1 a2 a3 (ix2 b m)
      = (Finset.univ : Finset (Fin 4096)).fold max ⊥ (fun n => val_main_v12 (F := Ideal) a0 a1 a2 a3 (ix3 b m n)) := by
    unfold val_main_v13
    generalize val_main_v12 (F := Ideal) a0 a1 a2 a3 = y
    refine (Host.reduce_eq_fold_single (α := EReal) (FloatOps.maximumf (F := Ideal) (φ := .f32)) y _
      reducesTo_S4x4096x4096_S4x4096_d2 h h_S_ (ix2 b m)).trans ?_
    rw [val_main_cst_1_apply, Ideal.ofBits_def, ofBits_ninf]
    exact Finset.fold_congr fun k _ => congrArg y (eq_ix3 _)
  rw [val_main_v15_apply, val_main_v14_apply, val_main_cst_2_apply, e13, Ideal.ofBits_def, ofBits_ninf]
  simp only [v12_at]
  exact max_eq_right bot_le

theorem v19_at (b : Fin 4) (m n : Fin 4096) :
    val_main_v19 (F := Ideal) a0 a1 a2 a3 (ix3 b m n) = Ideal.exp (sim a0 a1 a2 a3 b m n - rowmax a0 a1 a2 a3 b m) := by
  have e : idx_main_v16 (idx_main_v17 (ix3 b m n)) = ix2 b m := eq_ix2 _
  rw [val_main_v19_apply, val_main_v18_apply, val_main_v17_apply, val_main_v16_apply, e, v12_at, v15_at]
  rfl

theorem v20_at (b : Fin 4) (m : Fin 4096) :
    val_main_v20 (F := Ideal) a0 a1 a2 a3 (ix2 b m)
      = ∑ n' : Fin 4096, Ideal.exp (sim a0 a1 a2 a3 b m n' - rowmax a0 a1 a2 a3 b m) := by
  have e : ∀ k : Fin 4096, idx_main_v20 (ix2 b m) k = ix3 b m k := fun k => eq_ix3 _
  rw [val_main_v20_apply, val_main_cst_3_apply, Ideal.ofBits_def, Ideal.ofBits_zero_f32, zero_add]
  simp only [e, v19_at]

theorem v23_at (b : Fin 4) (m n : Fin 4096) :
    val_main_v23 (F := Ideal) a0 a1 a2 a3 (ix3 b m n) = p01 a0 a1 a2 a3 b m n := by
  have e : idx_main_v21 (idx_main_v22 (ix3 b m n)) = ix2 b m := eq_ix2 _
  rw [val_main_v23_apply, val_main_v22_apply, val_main_v21_apply, e, v19_at, v20_at]
  rfl

theorem v26_at (b : Fin 4) (n : Fin 4096) :
    val_main_v26 (F := Ideal) a0 a1 a2 a3 (ix2 b n) = colmax a0 a1 a2 a3 b n := by
  have h : S4x4096x4096.Reduces [1] S4x4096 := by decide
  have e24 : val_main_v24 (F := Ideal) a0 a1 a2 a3 (ix2 b n)
      = (Finset.univ : Finset (Fin 4096)).fold max ⊥ (fun m => val_main_v12 (F := Ideal) a0 a1 a2 a3 (ix3 b m n)) := by
    unfold val_main_v24
    generalize val_main_v12 (F := Ideal) a0 a1 a2 a3 = y
    refine (Host.reduce_eq_fold_single (α := EReal) (FloatOps.maximumf (F := Ideal) (φ := .f32)) y _
      reducesTo_S4x4096x4096_S4x4096_d1 h h_S_ (ix2 b n)).trans ?_
    rw [val_main_cst_4_apply, Ideal.ofBits_def, ofBits_ninf]
    exact Finset.fold_congr fun k _ => congrArg y (eq_ix3 _)
  rw [val_main_v26_apply, val_main_v25_apply, val_main_cst_5_apply, e24, Ideal.ofBits_def, ofBits_ninf]
  simp only [v12_at]
  exact max_eq_right bot_le

theorem v30_at (b : Fin 4) (m n : Fin 4096) :
    val_main_v30 (F := Ideal) a0 a1 a2 a3 (ix3 b m n) = Ideal.exp (sim a0 a1 a2 a3 b m n - colmax a0 a1 a2 a3 b n) := by
  have e : idx_main_v27 (idx_main_v28 (ix3 b m n)) = ix2 b n := eq_ix2 _
  rw [val_main_v30_apply, val_main_v29_apply, val_main_v28_apply, val_main_v27_apply, e, v12_at, v26_at]
  rfl

theorem v31_at (b : Fin 4) (n : Fin 4096) :
    val_main_v31 (F := Ideal) a0 a1 a2 a3 (ix2 b n)
      = ∑ m' : Fin 4096, Ideal.exp (sim a0 a1 a2 a3 b m' n - colmax a0 a1 a2 a3 b n) := by
  have e : ∀ k : Fin 4096, idx_main_v31 (ix2 b n) k = ix3 b k n := fun k => eq_ix3 _
  rw [val_main_v31_apply, val_main_cst_6_apply, Ideal.ofBits_def, Ideal.ofBits_zero_f32, zero_add]
  simp only [e, v30_at]

theorem v34_at (b : Fin 4) (m n : Fin 4096) :
    val_main_v34 (F := Ideal) a0 a1 a2 a3 (ix3 b m n) = p10 a0 a1 a2 a3 b m n := by
  have e : idx_main_v32 (idx_main_v33 (ix3 b m n)) = ix2 b n := eq_ix2 _
  rw [val_main_v34_apply, val_main_v33_apply, val_main_v32_apply, e, v30_at, v31_at]
  rfl

theorem v38_at (b : Fin 4) (m : Fin 4096) (e : Fin 2) :
    val_main_v38 (F := Ideal) a0 a4 a5 (ix3 b m e) = lin a0 a4 a5 b m e := by
  have el : ∀ k : Fin 256, lidx_main_v35 (ix3 b m e) k = ix3 b m k := fun k => eq_ix3 _
  have er : ∀ k : Fin 256, ridx_main_v35 (ix3 b m e) k = ix2 e k := fun k => eq_ix2 _
  have eb : idx_main_v36 (idx_main_v37 (ix3 b m e)) = ix1 e := eq_ix1 _
  rw [val_main_v38_apply, val_main_v35_apply, val_main_v37_apply, val_main_v36_apply, eb]
  simp only [el, er]
  rfl

theorem v42_at (b : Fin 4) (n : Fin 4096) (e : Fin 2) :
    val_main_v42 (F := Ideal) a1 a4 a5 (ix3 b n e) = lin a1 a4 a5 b n e :=
  v38_at a1 a4 a5 b n e

theorem ref_p01 : val_main_v23 (F := Ideal) a0 a1 a2 a3 = fun i => p01 a0 a1 a2 a3 (i 0) (i 1) (i 2) :=
  funext fun i => (congrArg (val_main_v23 (F := Ideal) a0 a1 a2 a3) (eq_ix3 i)).trans (v23_at a0 a1 a2 a3 (i 0) (i 1) (i 2))

theorem ref_p10 : val_main_v34 (F := Ideal) a0 a1 a2 a3 = fun i => p10 a0 a1 a2 a3 (i 0) (i 1) (i 2) :=
  funext fun i => (congrArg (val_main_v34 (F := Ideal) a0 a1 a2 a3) (eq_ix3 i)).trans (v34_at a0 a1 a2 a3 (i 0) (i 1) (i 2))

theorem ref_lv01 : val_main_v38 (F := Ideal) a0 a4 a5 = fun i => lin a0 a4 a5 (i 0) (i 1) (i 2) :=
  funext fun i => (congrArg (val_main_v38 (F := Ideal) a0 a4 a5) (eq_ix3 i)).trans (v38_at a0 a4 a5 (i 0) (i 1) (i 2))

theorem ref_lv10 : val_main_v42 (F := Ideal) a1 a4 a5 = fun i => lin a1 a4 a5 (i 0) (i 1) (i 2) :=
  funext fun i => (congrArg (val_main_v42 (F := Ideal) a1 a4 a5) (eq_ix3 i)).trans (v42_at a1 a4 a5 (i 0) (i 1) (i 2))

end Stages

section Run

variable (m : (ℓ : Loc nD τ sig) → Buf (Elt Ideal) ℓ) (c : Dev nD)

theorem run_closed (ρ : Dev nD → PrngReg) :
    θ_run defs (onTc (τ := τ) (main (F := Ideal))) ⟨m, fun _ => 0, ρ⟩ fun r => ∀ c : Dev nD,
      r.2.mem ((c.tc : Thread nD τ).loc main_v23)
        = (fun i => p01 (m ((c.tc : Thread nD τ).loc main_arg0)) (m ((c.tc : Thread nD τ).loc main_arg1))
            (m ((c.tc : Thread nD τ).loc main_arg2)) (m ((c.tc : Thread nD τ).loc main_arg3)) (i 0) (i 1) (i 2))
      ∧ r.2.mem ((c.tc : Thread nD τ).loc main_v34)
        = (fun i => p10 (m ((c.tc : Thread nD τ).loc main_arg0)) (m ((c.tc : Thread nD τ).loc main_arg1))
            (m ((c.tc : Thread nD τ).loc main_arg2)) (m ((c.tc : Thread nD τ).loc main_arg3)) (i 0) (i 1) (i 2))
      ∧ r.2.mem ((c.tc : Thread nD τ).loc main_v38)
        = (fun i => lin (m ((c.tc : Thread nD τ).loc main_arg0)) (m ((c.tc : Thread nD τ).loc main_arg4))
            (m ((c.tc : Thread nD τ).loc main_arg5)) (i 0) (i 1) (i 2))
      ∧ r.2.mem ((c.tc : Thread nD τ).loc main_v42)
        = (fun i => lin (m ((c.tc : Thread nD τ).loc main_arg1)) (m ((c.tc : Thread nD τ).loc main_arg4))
            (m ((c.tc : Thread nD τ).loc main_arg5)) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨(h c).1.trans ((val_main_v23_eq (F := Ideal) m c).trans (ref_p01 _ _ _ _)),
      (h c).2.1.trans ((val_main_v34_eq (F := Ideal) m c).trans (ref_p10 _ _ _ _)),
      (h c).2.2.1.trans ((val_main_v38_eq (F := Ideal) _ _ _).trans (ref_lv01 _ _ _)),
      (h c).2.2.2.1.trans ((val_main_v42_eq (F := Ideal) _ _ _).trans (ref_lv10 _ _ _)),
      (h c).2.2.2.2⟩)
    (Cert.ReferenceIdeal.Value.run (F := Ideal) m ρ)

end Run

theorem frame_ri : Cert.frame_ReferenceIdeal :=
  fun m ρ _ => (θ_run Cert.ReferenceIdeal.defs _ _).mono (fun _ h c => (h c).2.2.2.2)
    (Cert.ReferenceIdeal.Value.run (F := Ideal) m ρ)

end Cert.ReferenceIdeal.RefValue

end
-- ==== Proof.Val.Host.lean ====
import proofs.«423235_j29944511988266_3_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal

noncomputable section

namespace Cert.KernelIdeal.Val

open Cert.KernelIdeal Cert.KernelIdeal.Gen
open Idealize.ShloMosaic Idealize.ShloMosaic.ValueIdx

abbrev row (b : Fin 4) (mm : Fin 4096) : Fin 16384 := ⟨4096 * b.val + mm.val, by omega⟩

section Reshapes
variable {α : Type}

theorem flatten_apply {k : ℕ} (x : (⟨3, ![4, 4096, k]⟩ : Shape).Idx → α)
    (h : (⟨3, ![4, 4096, k]⟩ : Shape).ShapeCasts ⟨2, ![16384, k]⟩) (b : Fin 4) (mm : Fin 4096) (d : Fin k) :
    shapeCast ⟨2, ![16384, k]⟩ x h (ix2 (row b mm) d) = x (ix3 b mm d) :=
  shapeCast_apply x h _ _ (by
    rw [Shape.rowMajor_val_three, Shape.rowMajor_val_two]
    show (b.val * 4096 + mm.val) * k + d.val = (4096 * b.val + mm.val) * k + d.val
    rw [Nat.mul_comm b.val 4096])

theorem stack_apply {k : ℕ} (x : (⟨2, ![16384, k]⟩ : Shape).Idx → α)
    (h : (⟨2, ![16384, k]⟩ : Shape).ShapeCasts ⟨3, ![4, 4096, k]⟩) (b : Fin 4) (mm : Fin 4096) (d : Fin k) :
    shapeCast ⟨3, ![4, 4096, k]⟩ x h (ix3 b mm d) = x (ix2 (row b mm) d) :=
  shapeCast_apply x h _ _ (by
    rw [Shape.rowMajor_val_three, Shape.rowMajor_val_two]
    show (4096 * b.val + mm.val) * k + d.val = (b.val * 4096 + mm.val) * k + d.val
    rw [Nat.mul_comm b.val 4096])

end Reshapes

variable (W : Valuation τ sig (Elt Ideal))

theorem host0_v0 :
    (StableHlo.after hostOps0 W (Proc.devRef .tc main_v0) : S256x256.Idx → EReal) = W (Proc.devRef .tc main_arg2) := by
  after_results
  rfl

theorem host0_v1 :
    (StableHlo.after hostOps0 W (Proc.devRef .tc main_v1) : S2x256.Idx → EReal) = W (Proc.devRef .tc main_arg4) := by
  after_results
  rfl

theorem host0_v2 (e : Fin 256) :
    (StableHlo.after hostOps0 W (Proc.devRef .tc main_v2) : S1x256.Idx → EReal) (ix2 (0 : Fin 1) e)
      = (W (Proc.devRef .tc main_arg3) : S256.Idx → EReal) (ix1 e) := by
  after_results
  exact shapeCast_a_1a_apply (W (Proc.devRef .tc main_arg3) : S256.Idx → EReal) shapeCasts_S256_S1x256 0 e

theorem host0_v3 (j : Fin 2) :
    (StableHlo.after hostOps0 W (Proc.devRef .tc main_v3) : S1x2.Idx → EReal) (ix2 (0 : Fin 1) j)
      = (W (Proc.devRef .tc main_arg5) : S2.Idx → EReal) (ix1 j) := by
  after_results
  exact shapeCast_a_1a_apply (W (Proc.devRef .tc main_arg5) : S2.Idx → EReal) shapeCasts_S2_S1x2 0 j

theorem host0_v5 (b : Fin 4) (mm : Fin 4096) (d : Fin 256) :
    (StableHlo.after hostOps0 W (Proc.devRef .tc main_v5) : S16384x256.Idx → EReal) (ix2 (row b mm) d)
      = (W (Proc.devRef .tc main_arg0) : S4x4096x256.Idx → EReal) (ix3 b mm d) := by
  after_results
  exact flatten_apply (W (Proc.devRef .tc main_arg0) : S4x4096x256.Idx → EReal) shapeCasts_S4x4096x256_S16384x256 b mm d

theorem host1_v7 (b : Fin 4) (mm : Fin 4096) (d : Fin 256) :
    (StableHlo.after hostOps1 W (Proc.devRef .tc main_v7) : S4x4096x256.Idx → EReal) (ix3 b mm d)
      = (W (Proc.devRef .tc main_v6_0) : S16384x256.Idx → EReal) (ix2 (row b mm) d) := by
  after_results
  exact stack_apply (W (Proc.devRef .tc main_v6_0) : S16384x256.Idx → EReal) shapeCasts_S16384x256_S4x4096x256 b mm d

theorem host1_v8 (b : Fin 4) (mm : Fin 4096) (j : Fin 2) :
    (StableHlo.after hostOps1 W (Proc.devRef .tc main_v8) : S4x4096x2.Idx → EReal) (ix3 b mm j)
      = (W (Proc.devRef .tc main_v6_1) : S16384x2.Idx → EReal) (ix2 (row b mm) j) := by
  after_results
  exact stack_apply (W (Proc.devRef .tc main_v6_1) : S16384x2.Idx → EReal) shapeCasts_S16384x2_S4x4096x2 b mm j

theorem host1_v10 (b : Fin 4) (mm : Fin 4096) (d : Fin 256) :
    (StableHlo.after hostOps1 W (Proc.devRef .tc main_v10) : S16384x256.Idx → EReal) (ix2 (row b mm) d)
      = (W (Proc.devRef .tc main_arg1) : S4x4096x256.Idx → EReal) (ix3 b mm d) := by
  after_results
  exact flatten_apply (W (Proc.devRef .tc main_arg1) : S4x4096x256.Idx → EReal) shapeCasts_S4x4096x256_S16384x256 b mm d

theorem host2_v12 (b : Fin 4) (mm : Fin 4096) (d : Fin 256) :
    (StableHlo.after hostOps2 W (Proc.devRef .tc main_v12) : S4x4096x256.Idx → EReal) (ix3 b mm d)
      = (W (Proc.devRef .tc main_v11_0) : S16384x256.Idx → EReal) (ix2 (row b mm) d) := by
  after_results
  exact stack_apply (W (Proc.devRef .tc main_v11_0) : S16384x256.Idx → EReal) shapeCasts_S16384x256_S4x4096x256 b mm d

theorem host2_v13 (b : Fin 4) (mm : Fin 4096) (j : Fin 2) :
    (StableHlo.after hostOps2 W (Proc.devRef .tc main_v13) : S4x4096x2.Idx → EReal) (ix3 b mm j)
      = (W (Proc.devRef .tc main_v11_1) : S16384x2.Idx → EReal) (ix2 (row b mm) j) := by
  after_results
  exact stack_apply (W (Proc.devRef .tc main_v11_1) : S16384x2.Idx → EReal) shapeCasts_S16384x2_S4x4096x2 b mm j

end Cert.KernelIdeal.Val

end
-- ==== Proof.Val.Chain.lean ====
import proofs.«423235_j29944511988266_3_alg».proof.Proof.KI.Fold
import proofs.«423235_j29944511988266_3_alg».proof.Proof.Val.Host

noncomputable section

namespace Cert.KernelIdeal.Val

open Cert.KernelIdeal Cert.KernelIdeal.Gen
open Idealize.ShloMosaic Idealize.ShloMosaic.TcCoe Idealize.ShloMosaic.ValueIdx
open Idealize.ShloMosaic.Pipeline (Dat)

variable (m : (ℓ : Loc nD τ sig) → Buf (Elt Ideal) ℓ) (ρ : Dev nD → PrngReg) (c : Dev nD)

abbrev a0 : S4x4096x256.Idx → EReal := m ((c : Thread nD τ).loc main_arg0)
abbrev a1 : S4x4096x256.Idx → EReal := m ((c : Thread nD τ).loc main_arg1)
abbrev a2 : S256x256.Idx → EReal := m ((c : Thread nD τ).loc main_arg2)
abbrev a3 : S256.Idx → EReal := m ((c : Thread nD τ).loc main_arg3)
abbrev a4 : S2x256.Idx → EReal := m ((c : Thread nD τ).loc main_arg4)
abbrev a5 : S2.Idx → EReal := m ((c : Thread nD τ).loc main_arg5)

theorem V1_v5 (b : Fin 4) (mm : Fin 4096) (d : Fin 256) :
    (Hand.V1 m ρ c main_v5 : S16384x256.Idx → EReal) (ix2 (row b mm) d) = a0 m c (ix3 b mm d) :=
  host0_v5 (Hand.W0 m ρ c) b mm d

theorem V1_v0 : (Hand.V1 m ρ c main_v0 : S256x256.Idx → EReal) = a2 m c := host0_v0 (Hand.W0 m ρ c)
theorem V1_v1 : (Hand.V1 m ρ c main_v1 : S2x256.Idx → EReal) = a4 m c := host0_v1 (Hand.W0 m ρ c)

theorem V1_v2 (e : Fin 256) : (Hand.V1 m ρ c main_v2 : S1x256.Idx → EReal) (ix2 (0 : Fin 1) e) = a3 m c (ix1 e) :=
  host0_v2 (Hand.W0 m ρ c) e
theorem V1_v3 (j : Fin 2) : (Hand.V1 m ρ c main_v3 : S1x2.Idx → EReal) (ix2 (0 : Fin 1) j) = a5 m c (ix1 j) :=
  host0_v3 (Hand.W0 m ρ c) j

theorem W2_in (w : Fin cfg0.W) (hin : (cfg0.win w).isOut = false) :
    Hand.W2 m ρ c (Proc.devRef .tc (Pipeline.arrRef spec0 w)) = Hand.V1 m ρ c (Pipeline.arrRef spec0 w) :=
  (Hand.W2_arr m ρ c w).trans (((Hand.dat0 (Hand.V1 m ρ) c).arrAt_in w hin _).trans (Hand.A_eq0 (Hand.V1 m ρ) c w))

theorem W2_launched (b : Ref sig .tc) (h0 : b ∉ hostOps0_W) (n0 : ∀ w, Pipeline.arrRef spec0 w ≠ b) :
    Hand.W2 m ρ c (Proc.devRef .tc b) = m ((c : Thread nD τ).loc b) :=
  calc Hand.W2 m ρ c (Proc.devRef .tc b)
    _ = Hand.W1 m ρ c (Proc.devRef .tc b) := Hand.W2_of_ne m ρ c b n0
    _ = Hand.W0 m ρ c (Proc.devRef .tc b) := StableHlo.after_of_writes_sub hostOps0 _ hostOps0_writes h0
    _ = m ((c : Thread nD τ).loc b) := rfl

theorem V3_v10 (b : Fin 4) (mm : Fin 4096) (d : Fin 256) :
    (Hand.V3 m ρ c main_v10 : S16384x256.Idx → EReal) (ix2 (row b mm) d) = a1 m c (ix3 b mm d) :=
  (host1_v10 (Hand.W2 m ρ c) b mm d).trans
    (congrFun (W2_launched m ρ c main_arg1 (by decide) (by decide)) (ix3 b mm d))

theorem V3_v0 : (Hand.V3 m ρ c main_v0 : S256x256.Idx → EReal) = a2 m c :=
  (StableHlo.after_of_writes_sub hostOps1 _ hostOps1_writes (by decide)).trans ((W2_in m ρ c 1 rfl).trans (V1_v0 m ρ c))
theorem V3_v1 : (Hand.V3 m ρ c main_v1 : S2x256.Idx → EReal) = a4 m c :=
  (StableHlo.after_of_writes_sub hostOps1 _ hostOps1_writes (by decide)).trans ((W2_in m ρ c 3 rfl).trans (V1_v1 m ρ c))
theorem V3_v2 (e : Fin 256) : (Hand.V3 m ρ c main_v2 : S1x256.Idx → EReal) (ix2 (0 : Fin 1) e) = a3 m c (ix1 e) :=
  (congrFun ((StableHlo.after_of_writes_sub hostOps1 _ hostOps1_writes (by decide)).trans (W2_in m ρ c 2 rfl)) (ix2 (0 : Fin 1) e)).trans (V1_v2 m ρ c e)
theorem V3_v3 (j : Fin 2) : (Hand.V3 m ρ c main_v3 : S1x2.Idx → EReal) (ix2 (0 : Fin 1) j) = a5 m c (ix1 j) :=
  (congrFun ((StableHlo.after_of_writes_sub hostOps1 _ hostOps1_writes (by decide)).trans (W2_in m ρ c 4 rfl)) (ix2 (0 : Fin 1) j)).trans (V1_v3 m ρ c j)

theorem W4_in (w : Fin cfg1.W) (hin : (cfg1.win w).isOut = false) :
    Hand.W4 m ρ c (Proc.devRef .tc (Pipeline.arrRef spec1 w)) = Hand.V3 m ρ c (Pipeline.arrRef spec1 w) :=
  (Hand.W4_arr m ρ c w).trans (((Hand.dat1 (Hand.V3 m ρ) c).arrAt_in w hin _).trans (Hand.A_eq1 (Hand.V3 m ρ) c w))

theorem V5_v7 (b : Fin 4) (mm : Fin 4096) (d : Fin 256) :
    (Hand.V5 m ρ c main_v7 : S4x4096x256.Idx → EReal) (ix3 b mm d)
      = (Hand.W2 m ρ c (Proc.devRef .tc main_v6_0) : S16384x256.Idx → EReal) (ix2 (row b mm) d) :=
  (congrFun ((StableHlo.after_of_writes_sub hostOps2 _ hostOps2_writes (by decide)).trans (Hand.W4_of_ne m ρ c main_v7 (by decide))) (ix3 b mm d)).trans
    (host1_v7 (Hand.W2 m ρ c) b mm d)

theorem V5_v12 (b : Fin 4) (nn : Fin 4096) (d : Fin 256) :
    (Hand.V5 m ρ c main_v12 : S4x4096x256.Idx → EReal) (ix3 b nn d)
      = (Hand.W4 m ρ c (Proc.devRef .tc main_v11_0) : S16384x256.Idx → EReal) (ix2 (row b nn) d) :=
  host2_v12 (Hand.W4 m ρ c) b nn d

theorem W7_v8 (b : Fin 4) (mm : Fin 4096) (j : Fin 2) :
    (Hand.W7 m ρ c (Proc.devRef .tc main_v8) : S4x4096x2.Idx → EReal) (ix3 b mm j)
      = (Hand.W2 m ρ c (Proc.devRef .tc main_v6_1) : S16384x2.Idx → EReal) (ix2 (row b mm) j) :=
  (congrFun (((Hand.W7_of_ne m ρ c main_v8 (by decide)).trans (Hand.W6_of_ne m ρ c main_v8 (by decide))).trans
      ((StableHlo.after_of_writes_sub hostOps2 _ hostOps2_writes (by decide)).trans (Hand.W4_of_ne m ρ c main_v8 (by decide)))) (ix3 b mm j)).trans
    (host1_v8 (Hand.W2 m ρ c) b mm j)

theorem W7_v13 (b : Fin 4) (nn : Fin 4096) (j : Fin 2) :
    (Hand.W7 m ρ c (Proc.devRef .tc main_v13) : S4x4096x2.Idx → EReal) (ix3 b nn j)
      = (Hand.W4 m ρ c (Proc.devRef .tc main_v11_1) : S16384x2.Idx → EReal) (ix2 (row b nn) j) :=
  (congrFun ((Hand.W7_of_ne m ρ c main_v13 (by decide)).trans (Hand.W6_of_ne m ρ c main_v13 (by decide))) (ix3 b nn j)).trans
    (host2_v13 (Hand.W4 m ρ c) b nn j)

theorem V6_v7 : Hand.V6 m ρ c main_v7 = Hand.V5 m ρ c main_v7 :=
  (Hand.W6_arr m ρ c 0).trans (((Hand.dat2 (Hand.V5 m ρ) c).arrAt_in 0 rfl _).trans (Hand.A_eq2 (Hand.V5 m ρ) c 0))
theorem V6_v12 : Hand.V6 m ρ c main_v12 = Hand.V5 m ρ c main_v12 :=
  (Hand.W6_arr m ρ c 1).trans (((Hand.dat2 (Hand.V5 m ρ) c).arrAt_in 1 rfl _).trans (Hand.A_eq2 (Hand.V5 m ρ) c 1))

theorem V6_v14_0 : Hand.V6 m ρ c main_v14_0 = (Hand.dat2 (Hand.V5 m ρ) c).arrAt 2 cfg2.N := Hand.W6_arr m ρ c 2
theorem V6_v14_1 : Hand.V6 m ρ c main_v14_1 = (Hand.dat2 (Hand.V5 m ρ) c).arrAt 3 cfg2.N := Hand.W6_arr m ρ c 3

theorem W7_v15_0 : Hand.W7 m ρ c (Proc.devRef .tc main_v15_0) = (Hand.dat3 (Hand.V6 m ρ) c).arrAt 4 cfg3.N :=
  Hand.W7_arr m ρ c 4
theorem W7_v15_1 : Hand.W7 m ρ c (Proc.devRef .tc main_v15_1) = (Hand.dat3 (Hand.V6 m ρ) c).arrAt 5 cfg3.N :=
  Hand.W7_arr m ρ c 5

end Cert.KernelIdeal.Val

end
-- ==== Proof.LibDotNT.lean ====
import Idealize.ShloMosaic.PureOps.Ideal.Laws
import Idealize.ShloMosaic.Lib.ValueIdx

noncomputable section

open scoped BigOperators

namespace Cert.LibDotNT

open Idealize.ShloMosaic Idealize.ShloMosaic.ValueIdx

theorem matmul_nt_apply {φ₁ φ₂ : FTy} (M K N : Nat) (prec : Option ContractPrecision)
    (A : FVec Ideal ⟨2, ![M, K]⟩ φ₁) (B : FVec Ideal ⟨2, ![N, K]⟩ φ₂) (r : Fin M) (q : Fin N) :
    FloatOps.matmul (DotDims.transposedRhs M K N) prec A B (constant ⟨2, ![M, N]⟩ .f32 0x00000000#32) (ix2 r q)
      = ∑ j : Fin K, A (ix2 r j) * B (ix2 q j) := by
  rw [Ideal.matmul_constant_zero_apply, ← Equiv.sum_comp (contrEquiv1 (DotDims.transposedRhs M K N) K rfl rfl).symm]
  refine Finset.sum_congr rfl fun j _ => ?_
  have hj := contrEquiv1_symm_val (DotDims.transposedRhs M K N) K rfl rfl j
  congr 2 <;> funext a <;> apply Fin.ext <;> match a with
    | ⟨0, _⟩ => rfl
    | ⟨1, _⟩ => exact Eq.trans rfl hj

end Cert.LibDotNT

end
-- ==== Proof.LibBlocks.lean ====
import Idealize.ShloMosaic.Lib.Pipeline.Value

namespace Idealize.ShloMosaic.Pipeline.Dat

variable {nD : ℕ} {τ : Topo} {sig : RefSig} {Val : EltTy → Type} {Λ₀ : Idealize.SL.Sem.Labels} {Ix : Type} [DecidableEq Ix]
  {Name : Type} [DecidableEq Name] {U : Type} [Idealize.SL.RA.URA U] {Lvl : Type} {cfg : Pipeline.Cfg sig Λ₀} {c : Dev nD}

-- every index is the image of a block index at some point, every point writes back block `t` of `G`: the array ends as `G`
theorem arrAt_of_emb (dat : Dat τ Val Ix Name U Lvl cfg c) (w : Fin cfg.W)
    (G : Buf Val ((cfg.win w).arr.view.loc (c.tc : Thread nD τ))) (hf : ∀ t, (cfg.win w).flush t = true)
    (hG : ∀ t, dat.flushed w t = ((cfg.win w).blk t).view.read Val G)
    (hc : ∀ i : ((cfg.win w).arr.view.loc (c.tc : Thread nD τ)).2.ty.Idx, ∃ t y, ((cfg.win w).blk t).view.emb y = i) : dat.arrAt w cfg.N = G :=
  dat.arrAt_eq_of_cover w G (fun t _ => hG t) fun i => by
    obtain ⟨t, y, rfl⟩ := hc i
    exact ⟨t, hf t, View.emb_mem_set _ y⟩

end Idealize.ShloMosaic.Pipeline.Dat
-- ==== Proof.Val.ProjPay.lean ====
import proofs.«423235_j29944511988266_3_alg».proof.Proof.Gen.KernelIdeal.Skeleton
import proofs.«423235_j29944511988266_3_alg».proof.Proof.LibDotNT
import proofs.«423235_j29944511988266_3_alg».proof.Proof.LibBlocks
import Idealize.ShloMosaic.Lib.ValueLayout

noncomputable section

open scoped BigOperators

namespace Cert.KernelIdeal.Val

open Cert.KernelIdeal Cert.KernelIdeal.Gen
open Idealize.ShloMosaic Idealize.ShloMosaic.ValueIdx

def mdArr (X : S16384x256.Idx → EReal) (Wf : S256x256.Idx → EReal) (bf : S1x256.Idx → EReal) : S16384x256.Idx → EReal :=
  fun i => ((∑ d : Fin 256, X (ix2 (i 0) d) * Wf (ix2 (i 1) d)) + bf (ix2 (0 : Fin 1) (i 1))) * Ideal.ofBits .f32 0x3E800000#32

def lvArr (X : S16384x256.Idx → EReal) (Wl : S2x256.Idx → EReal) (bl : S1x2.Idx → EReal) : S16384x2.Idx → EReal :=
  fun i => (∑ d : Fin 256, X (ix2 (i 0) d) * Wl (ix2 (i 1) d)) + bl (ix2 (0 : Fin 1) (i 1))

abbrev blockRow (t : ℕ) (ht : t < 16) (p : Fin 1024) : Fin 16384 := ⟨t * 1024 + p.val, by omega⟩

-- rows 1024·t … 1024·t + 1023 of an array of 16384 rows
def rowBlk {n : ℕ} (t : ℕ) (ht : t < 16) (X : (⟨2, ![16384, n]⟩ : Shape).Idx → EReal) : (⟨2, ![1024, n]⟩ : Shape).Idx → EReal :=
  fun y => X (ix2 (blockRow t ht (y 0)) (y 1))

-- both products contract the last axes, the bias row is broadcast down the rows: a block of rows gives that block of the result
theorem md_blk (t : ℕ) (ht : t < 16) (X : S16384x256.Idx → EReal) (Wf : S256x256.Idx → EReal) (bf : S1x256.Idx → EReal) :
    k0_pay2 (F := Ideal) (rowBlk t ht X) Wf bf = rowBlk t ht (mdArr X Wf bf) := by
  funext j
  obtain ⟨p, e, rfl⟩ : ∃ (p : Fin 1024) (e : Fin 256), j = ix2 p e := ⟨j 0, j 1, eq_ix2 j⟩
  unfold k0_pay2 k0_pay1
  dsimp only
  rw [shapeCast_self, shapeCast_self, shapeCast_self]
  show (FloatOps.matmul (F := Ideal) (DotDims.transposedRhs 1024 256 256) none (rowBlk t ht X) Wf (constant ⟨2, ![1024, 256]⟩ .f32 0x00000000#32) (ix2 p e)
        + broadcastTo ⟨2, ![1024, 256]⟩ bf broadcasts_S1x256_S1024x256 (ix2 p e)) * Ideal.ofBits .f32 0x3E800000#32 = _
  rw [Cert.LibDotNT.matmul_nt_apply, broadcastTo_1b_ab_apply]
  rfl

theorem lv_blk (t : ℕ) (ht : t < 16) (X : S16384x256.Idx → EReal) (Wl : S2x256.Idx → EReal) (bl : S1x2.Idx → EReal) :
    k0_pay3 (F := Ideal) (rowBlk t ht X) Wl bl = rowBlk t ht (lvArr X Wl bl) := by
  funext j
  obtain ⟨p, q, rfl⟩ : ∃ (p : Fin 1024) (q : Fin 2), j = ix2 p q := ⟨j 0, j 1, eq_ix2 j⟩
  unfold k0_pay3 k0_pay1
  dsimp only
  rw [shapeCast_self, shapeCast_self, shapeCast_self]
  show FloatOps.matmul (F := Ideal) (DotDims.transposedRhs 1024 256 2) none (rowBlk t ht X) Wl (constant ⟨2, ![1024, 2]⟩ .f32 0x00000000#32) (ix2 p q)
        + broadcastTo ⟨2, ![1024, 2]⟩ bl broadcasts_S1x2_S1024x2 (ix2 p q) = _
  rw [Cert.LibDotNT.matmul_nt_apply, broadcastTo_1b_ab_apply]
  rfl

theorem exists_rowBlk {n : ℕ} (i : (⟨2, ![16384, n]⟩ : Shape).Idx) :
    ∃ (t : ℕ) (ht : t < 16) (y : (⟨2, ![1024, n]⟩ : Shape).Idx), ix2 (blockRow t ht (y 0)) (y 1) = i := by
  have h := idx2_lt0 i
  refine ⟨(i 0).val / 1024, by omega, ix2 ⟨(i 0).val % 1024, by omega⟩ (i 1), ?_⟩
  refine (congrArg (ix2 · (i 1)) (Fin.ext ?_)).trans (eq_ix2 i).symm
  show (i 0).val / 1024 * 1024 + (i 0).val % 1024 = (i 0).val
  omega

theorem hz : (![0, 0] : Fin 2 → Nat) = fun _ => 0 := funext fun a => by fin_cases a <;> rfl

end Cert.KernelIdeal.Val

end
-- ==== Proof.Val.Proj0.lean ====
import proofs.«423235_j29944511988266_3_alg».proof.Proof.Val.ProjPay
import proofs.«423235_j29944511988266_3_alg».proof.Proof.KI.Reg0Defs
import proofs.«423235_j29944511988266_3_alg».proof.Proof.Gen.KernelIdeal.Points
import proofs.«423235_j29944511988266_3_alg».proof.Proof.Gen.KernelIdeal.Launch

noncomputable section

namespace Cert.KernelIdeal.Val

open Cert.KernelIdeal Cert.KernelIdeal.Gen
open Idealize.ShloMosaic Idealize.ShloMosaic.TcCoe Idealize.ShloMosaic.ValueIdx

variable (V : (c : Dev nD) → (b : Ref sig .tc) → Buf (Elt Ideal) ((c : Thread nD τ).loc b)) (c : Dev nD) (t : Fin cfg0.N)

theorem idx_facts0 : ∀ t : Fin cfg0.N,
    (∀ a, win0_1.index t a = 0) ∧ (∀ a, win0_2.index t a = 0) ∧ (∀ a, win0_3.index t a = 0) ∧ (∀ a, win0_4.index t a = 0)
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem lt16_0 : t.val < 16 := lt_of_lt_of_eq t.isLt N_0

-- the activations and the wide output are cut into the same blocks of 1024 rows, in both regions
theorem emb0_5 (y : S1024x256.Idx) : ((cfg0.win 5).blk t).view.emb y = ix2 (blockRow t.val (lt16_0 t) (y 0)) (y 1) := by
  obtain ⟨-, -, -, -, e0, e1, -⟩ := idx_facts0 t
  funext a; apply Fin.ext
  match a with
  | ⟨0, _⟩ => show win0_5.index t (0 : Fin 2) * 1024 + 1 * (y 0).val = t.val * 1024 + (y 0).val; omega
  | ⟨1, _⟩ => show win0_5.index t (1 : Fin 2) * 256 + 1 * (y 1).val = (y 1).val; omega

theorem emb0_6 (y : S1024x2.Idx) : ((cfg0.win 6).blk t).view.emb y = ix2 (blockRow t.val (lt16_0 t) (y 0)) (y 1) := by
  obtain ⟨-, -, -, -, -, -, e0, e1⟩ := idx_facts0 t
  funext a; apply Fin.ext
  match a with
  | ⟨0, _⟩ => show win0_6.index t (0 : Fin 2) * 1024 + 1 * (y 0).val = t.val * 1024 + (y 0).val; omega
  | ⟨1, _⟩ => show win0_6.index t (1 : Fin 2) * 2 + 1 * (y 1).val = (y 1).val; omega

-- the activations' block is rows 1024·t …; the weights' and biases' blocks are their arrays
theorem blocks0 : Hand.iblk0 V c 0 t = rowBlk t.val (lt16_0 t) (V c main_v5) ∧ Hand.iblk0 V c 1 t = V c main_v0
    ∧ Hand.iblk0 V c 2 t = V c main_v2 ∧ Hand.iblk0 V c 3 t = V c main_v1 ∧ Hand.iblk0 V c 4 t = V c main_v3 := by
  obtain ⟨h1, h2, h3, h4, -⟩ := idx_facts0 t
  exact ⟨funext fun y => congrArg (V c main_v5) (emb0_5 t y),
    funext fun y => congrArg (V c main_v0) (funext fun a => Fin.ext (win0_1.rect_emb_val_of_index_zero t a (h1 a) y)),
    funext fun y => congrArg (V c main_v2) (funext fun a => Fin.ext (win0_2.rect_emb_val_of_index_zero t a (h2 a) y)),
    funext fun y => congrArg (V c main_v1) (funext fun a => Fin.ext (win0_3.rect_emb_val_of_index_zero t a (h3 a) y)),
    funext fun y => congrArg (V c main_v3) (funext fun a => Fin.ext (win0_4.rect_emb_val_of_index_zero t a (h4 a) y))⟩

theorem out5_eq (t : ℕ) (ht : t < 16) (X : S16384x256.Idx → EReal) (Wf : S256x256.Idx → EReal) (bf : S1x256.Idx → EReal) :
    Hand.out0_5 (F := Ideal) (rowBlk t ht X) Wf bf = rowBlk t ht (mdArr X Wf bf) := by
  unfold Hand.out0_5
  rw [View.canon_unit_zero hz]
  simp only [View.ld_unit_zero (S := S1024x256) hz, View.ld_unit_zero (S := S256x256) hz, View.ld_unit_zero (S := S1x256) hz]
  exact md_blk t ht X Wf bf

theorem out6_eq (t : ℕ) (ht : t < 16) (X : S16384x256.Idx → EReal) (Wl : S2x256.Idx → EReal) (bl : S1x2.Idx → EReal) :
    Hand.out0_6 (F := Ideal) (rowBlk t ht X) Wl bl = rowBlk t ht (lvArr X Wl bl) := by
  unfold Hand.out0_6
  rw [View.canon_unit_zero hz]
  simp only [View.ld_unit_zero (S := S1024x256) hz, View.ld_unit_zero (S := S2x256) hz, View.ld_unit_zero (S := S1x2) hz]
  exact lv_blk t ht X Wl bl

theorem md0_arr : (Hand.dat0 V c).arrAt 5 cfg0.N = mdArr (V c main_v5) (V c main_v0) (V c main_v2) := by
  refine (Hand.dat0 V c).arrAt_of_emb 5 _ flush0_5 (fun t => ?_) fun i => ?_
  · obtain ⟨b0, b1, b2, -⟩ := blocks0 V c t
    show (cfg0.win 5).cut (grid0.coords t) ((Hand.dat0 V c).after 5 t) = _
    rw [Hand.after0_5, b0, b1, b2]
    exact (out5_eq t.val (lt16_0 t) _ _ _).trans (funext fun y => (congrArg _ (emb0_5 t y)).symm)
  · obtain ⟨t, ht, y, rfl⟩ := exists_rowBlk i
    exact ⟨⟨t, N_0 ▸ ht⟩, y, emb0_5 _ y⟩

theorem lv0_arr : (Hand.dat0 V c).arrAt 6 cfg0.N = lvArr (V c main_v5) (V c main_v1) (V c main_v3) := by
  refine (Hand.dat0 V c).arrAt_of_emb 6 _ flush0_6 (fun t => ?_) fun i => ?_
  · obtain ⟨b0, -, -, b1, b2⟩ := blocks0 V c t
    show (cfg0.win 6).cut (grid0.coords t) ((Hand.dat0 V c).after 6 t) = _
    rw [Hand.after0_6, b0, b1, b2]
    exact (out6_eq t.val (lt16_0 t) _ _ _).trans (funext fun y => (congrArg _ (emb0_6 t y)).symm)
  · obtain ⟨t, ht, y, rfl⟩ := exists_rowBlk i
    exact ⟨⟨t, N_0 ▸ ht⟩, y, emb0_6 _ y⟩

end Cert.KernelIdeal.Val

end
-- ==== Proof.Val.Proj1.lean ====
import proofs.«423235_j29944511988266_3_alg».proof.Proof.Val.Proj0
import proofs.«423235_j29944511988266_3_alg».proof.Proof.KI.Reg1Defs

noncomputable section

namespace Cert.KernelIdeal.Val

open Cert.KernelIdeal Cert.KernelIdeal.Gen
open Idealize.ShloMosaic Idealize.ShloMosaic.TcCoe Idealize.ShloMosaic.ValueIdx

variable (V : (c : Dev nD) → (b : Ref sig .tc) → Buf (Elt Ideal) ((c : Thread nD τ).loc b)) (c : Dev nD) (t : Fin cfg1.N)

-- region 1 cuts its arrays as region 0 does: only the activations' and the outputs' arrays differ
theorem blocks1 : Hand.iblk1 V c 0 t = rowBlk t.val (lt16_0 t) (V c main_v10) ∧ Hand.iblk1 V c 1 t = V c main_v0
    ∧ Hand.iblk1 V c 2 t = V c main_v2 ∧ Hand.iblk1 V c 3 t = V c main_v1 ∧ Hand.iblk1 V c 4 t = V c main_v3 :=
  ⟨funext fun y => congrArg (V c main_v10) (emb0_5 t y), (blocks0 V c t).2⟩

theorem md1_arr : (Hand.dat1 V c).arrAt 5 cfg1.N = mdArr (V c main_v10) (V c main_v0) (V c main_v2) := by
  refine (Hand.dat1 V c).arrAt_of_emb 5 _ flush1_5 (fun t => ?_) fun i => ?_
  · obtain ⟨b0, b1, b2, -⟩ := blocks1 V c t
    show (cfg1.win 5).cut (grid1.coords t) ((Hand.dat1 V c).after 5 t) = _
    rw [Hand.after1_5, b0, b1, b2]
    exact (out5_eq t.val (lt16_0 t) _ _ _).trans (funext fun y => (congrArg _ (emb0_5 t y)).symm)
  · obtain ⟨t, ht, y, rfl⟩ := exists_rowBlk i
    exact ⟨⟨t, N_1 ▸ ht⟩, y, emb0_5 ⟨t, lt_of_lt_of_eq ht N_0.symm⟩ y⟩

theorem lv1_arr : (Hand.dat1 V c).arrAt 6 cfg1.N = lvArr (V c main_v10) (V c main_v1) (V c main_v3) := by
  refine (Hand.dat1 V c).arrAt_of_emb 6 _ flush1_6 (fun t => ?_) fun i => ?_
  · obtain ⟨b0, -, -, b1, b2⟩ := blocks1 V c t
    show (cfg1.win 6).cut (grid1.coords t) ((Hand.dat1 V c).after 6 t) = _
    rw [Hand.after1_6, b0, b1, b2]
    exact (out6_eq t.val (lt16_0 t) _ _ _).trans (funext fun y => (congrArg _ (emb0_6 t y)).symm)
  · obtain ⟨t, ht, y, rfl⟩ := exists_rowBlk i
    exact ⟨⟨t, N_1 ▸ ht⟩, y, emb0_6 ⟨t, lt_of_lt_of_eq ht N_0.symm⟩ y⟩

end Cert.KernelIdeal.Val

end
-- ==== Proof.Val.ChainProj.lean ====
import proofs.«423235_j29944511988266_3_alg».proof.Proof.Val.Chain
import proofs.«423235_j29944511988266_3_alg».proof.Proof.Val.Proj1

noncomputable section

open scoped BigOperators

namespace Cert.KernelIdeal.Val

open Cert.KernelIdeal Cert.KernelIdeal.Gen
open Idealize.ShloMosaic Idealize.ShloMosaic.TcCoe Idealize.ShloMosaic.ValueIdx

-- a projection entered with the flattened activations `x`, the weights and the bias row, read at row `4096·b + mm`
theorem mdArr_row {X : S16384x256.Idx → EReal} {Wf : S256x256.Idx → EReal} {bf : S1x256.Idx → EReal} {x : S4x4096x256.Idx → EReal}
    {w : S256x256.Idx → EReal} {v : S256.Idx → EReal} (hX : ∀ b mm d, X (ix2 (row b mm) d) = x (ix3 b mm d)) (hW : Wf = w)
    (hb : ∀ e, bf (ix2 0 e) = v (ix1 e)) (b : Fin 4) (mm : Fin 4096) (e : Fin 256) :
    mdArr X Wf bf (ix2 (row b mm) e) = ((∑ d : Fin 256, x (ix3 b mm d) * w (ix2 e d)) + v (ix1 e)) * Ideal.ofBits .f32 0x3E800000#32 := by
  show ((∑ d : Fin 256, X (ix2 (row b mm) d) * Wf (ix2 e d)) + bf (ix2 0 e)) * _ = _
  simp only [hX, hW, hb]

theorem lvArr_row {X : S16384x256.Idx → EReal} {Wl : S2x256.Idx → EReal} {bl : S1x2.Idx → EReal} {x : S4x4096x256.Idx → EReal}
    {w : S2x256.Idx → EReal} {v : S2.Idx → EReal} (hX : ∀ b mm d, X (ix2 (row b mm) d) = x (ix3 b mm d)) (hW : Wl = w)
    (hb : ∀ j, bl (ix2 0 j) = v (ix1 j)) (b : Fin 4) (mm : Fin 4096) (j : Fin 2) :
    lvArr X Wl bl (ix2 (row b mm) j) = (∑ d : Fin 256, x (ix3 b mm d) * w (ix2 j d)) + v (ix1 j) := by
  show (∑ d : Fin 256, X (ix2 (row b mm) d) * Wl (ix2 j d)) + bl (ix2 0 j) = _
  simp only [hX, hW, hb]

variable (m : (ℓ : Loc nD τ sig) → Buf (Elt Ideal) ℓ) (ρ : Dev nD → PrngReg) (c : Dev nD)

theorem W2_v6_0 (b : Fin 4) (mm : Fin 4096) (e : Fin 256) :
    (Hand.W2 m ρ c (Proc.devRef .tc main_v6_0) : S16384x256.Idx → EReal) (ix2 (row b mm) e)
      = ((∑ d : Fin 256, a0 m c (ix3 b mm d) * a2 m c (ix2 e d)) + a3 m c (ix1 e)) * Ideal.ofBits .f32 0x3E800000#32 :=
  (congrFun ((Hand.W2_arr m ρ c 5).trans (md0_arr _ c)) _).trans (mdArr_row (V1_v5 m ρ c) (V1_v0 m ρ c) (V1_v2 m ρ c) b mm e)

theorem W2_v6_1 (b : Fin 4) (mm : Fin 4096) (j : Fin 2) :
    (Hand.W2 m ρ c (Proc.devRef .tc main_v6_1) : S16384x2.Idx → EReal) (ix2 (row b mm) j)
      = (∑ d : Fin 256, a0 m c (ix3 b mm d) * a4 m c (ix2 j d)) + a5 m c (ix1 j) :=
  (congrFun ((Hand.W2_arr m ρ c 6).trans (lv0_arr _ c)) _).trans (lvArr_row (V1_v5 m ρ c) (V1_v1 m ρ c) (V1_v3 m ρ c) b mm j)

theorem W4_v11_0 (b : Fin 4) (nn : Fin 4096) (e : Fin 256) :
    (Hand.W4 m ρ c (Proc.devRef .tc main_v11_0) : S16384x256.Idx → EReal) (ix2 (row b nn) e)
      = ((∑ d : Fin 256, a1 m c (ix3 b nn d) * a2 m c (ix2 e d)) + a3 m c (ix1 e)) * Ideal.ofBits .f32 0x3E800000#32 :=
  (congrFun ((Hand.W4_arr m ρ c 5).trans (md1_arr _ c)) _).trans (mdArr_row (V3_v10 m ρ c) (V3_v0 m ρ c) (V3_v2 m ρ c) b nn e)

theorem W4_v11_1 (b : Fin 4) (nn : Fin 4096) (j : Fin 2) :
    (Hand.W4 m ρ c (Proc.devRef .tc main_v11_1) : S16384x2.Idx → EReal) (ix2 (row b nn) j)
      = (∑ d : Fin 256, a1 m c (ix3 b nn d) * a4 m c (ix2 j d)) + a5 m c (ix1 j) :=
  (congrFun ((Hand.W4_arr m ρ c 6).trans (lv1_arr _ c)) _).trans (lvArr_row (V3_v10 m ρ c) (V3_v1 m ρ c) (V3_v3 m ρ c) b nn j)

end Cert.KernelIdeal.Val

end
-- ==== Proof.Val.Norm.lean ====
import proofs.«423235_j29944511988266_3_alg».proof.Proof.KI.Reg3Defs
import proofs.«423235_j29944511988266_3_alg».proof.Proof.Gen.KernelIdeal.Points
import proofs.«423235_j29944511988266_3_alg».proof.Proof.LibDotNT
import proofs.«423235_j29944511988266_3_alg».proof.Proof.LibBlocks
import Idealize.ShloMosaic.Lib.ValueLayout

noncomputable section

open scoped BigOperators

namespace Cert.KernelIdeal.Val.Norm3

open Cert.KernelIdeal Cert.KernelIdeal.Gen
open Idealize.ShloMosaic Idealize.ShloMosaic.TcCoe Idealize.ShloMosaic.ValueIdx
open Idealize.ShloMosaic.Pipeline (Dat)

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem pay1_apply (x0 : Vec Ideal S1x1024x256 .bf16) (x1 : Vec Ideal S1x512x256 .bf16) (r : Fin 1024) (s : Fin 512) :
    k3_pay1 x0 x1 (ix2 r s) = ∑ d : Fin 256, x0 (ix3 (0 : Fin 1) r d) * x1 (ix3 (0 : Fin 1) s d) := by
  unfold k3_pay1
  refine (Cert.LibDotNT.matmul_nt_apply 1024 256 512 none _ _ r s).trans (Finset.sum_congr rfl fun d _ => ?_)
  rw [shapeCast_1ab_ab_apply, shapeCast_1ab_ab_apply]

theorem pay2_apply (x0 : Vec Ideal S1x1024x256 .bf16) (x1 : Vec Ideal S1x512x256 .bf16) (x2 : Vec Ideal S1x1024x1 .f32)
    (p : Fin 1) (r : Fin 1024) (s : Fin 512) :
    k3_pay2 x0 x1 x2 (ix3 p r s)
      = Ideal.exp ((∑ d : Fin 256, x0 (ix3 (0 : Fin 1) r d) * x1 (ix3 (0 : Fin 1) s d)) - x2 (ix3 (0 : Fin 1) r (0 : Fin 1))) := by
  unfold k3_pay2
  rw [shapeCast_ab_1ab_apply]
  show Ideal.exp (k3_pay1 x0 x1 (ix2 r s) - broadcastTo S1024x512 (shapeCast S1024x1 x2 shapeCasts_S1x1024x1_S1024x1) broadcasts_S1024x1_S1024x512 (ix2 r s)) = _
  rw [pay1_apply, broadcastTo_a1_ab_apply, shapeCast_1ab_ab_apply]

theorem pay3_apply (x0 : Vec Ideal S1x1024x256 .bf16) (x1 : Vec Ideal S1x512x256 .bf16) (x3 : Vec Ideal S1x1x512 .f32)
    (p : Fin 1) (r : Fin 1024) (s : Fin 512) :
    k3_pay3 x0 x1 x3 (ix3 p r s)
      = Ideal.exp ((∑ d : Fin 256, x0 (ix3 (0 : Fin 1) r d) * x1 (ix3 (0 : Fin 1) s d)) - x3 (ix3 (0 : Fin 1) (0 : Fin 1) s)) := by
  unfold k3_pay3
  rw [shapeCast_ab_1ab_apply]
  show Ideal.exp (k3_pay1 x0 x1 (ix2 r s) - broadcastTo S1024x512 (shapeCast S1x512 x3 shapeCasts_S1x1x512_S1x512) broadcasts_S1x512_S1024x512 (ix2 r s)) = _
  rw [pay1_apply, broadcastTo_1b_ab_apply, shapeCast_1ab_ab_apply]

def rowNorm (a0 a1 : S4x4096x256.Idx → EReal) (a2 : S4x4096x1.Idx → EReal) : S4x4096x4096.Idx → EReal :=
  fun i => Ideal.exp ((∑ d : Fin 256, a0 (ix3 (i 0) (i 1) d) * a1 (ix3 (i 0) (i 2) d)) - a2 (ix3 (i 0) (i 1) (0 : Fin 1)))

def colNorm (a0 a1 : S4x4096x256.Idx → EReal) (a3 : S4x1x4096.Idx → EReal) : S4x4096x4096.Idx → EReal :=
  fun i => Ideal.exp ((∑ d : Fin 256, a0 (ix3 (i 0) (i 1) d) * a1 (ix3 (i 0) (i 2) d)) - a3 (ix3 (i 0) (0 : Fin 1) (i 2)))

theorem rowNorm_apply (a0 a1 : S4x4096x256.Idx → EReal) (a2 : S4x4096x1.Idx → EReal) (b : Fin 4) (mm nn : Fin 4096) :
    rowNorm a0 a1 a2 (ix3 b mm nn) = Ideal.exp ((∑ d : Fin 256, a0 (ix3 b mm d) * a1 (ix3 b nn d)) - a2 (ix3 b mm 0)) := rfl

theorem colNorm_apply (a0 a1 : S4x4096x256.Idx → EReal) (a3 : S4x1x4096.Idx → EReal) (b : Fin 4) (mm nn : Fin 4096) :
    colNorm a0 a1 a3 (ix3 b mm nn) = Ideal.exp ((∑ d : Fin 256, a0 (ix3 b mm d) * a1 (ix3 b nn d)) - a3 (ix3 b 0 nn)) := rfl

-- point t of the 4 × 4 × 8 grid is batch t / 32, row block t / 8 % 4, column block t % 8
abbrev bat (t : ℕ) (ht : t < 128) : Fin 4 := ⟨t / 32, by omega⟩
abbrev rowOf (t : ℕ) (q : Fin 1024) : Fin 4096 := ⟨t / 8 % 4 * 1024 + q.val, by omega⟩
abbrev colOf (t : ℕ) (r : Fin 512) : Fin 4096 := ⟨t % 8 * 512 + r.val, by omega⟩

theorem exists_blk (i : S4x4096x4096.Idx) :
    ∃ (t : ℕ) (ht : t < 128) (q : Fin 1024) (r : Fin 512), ix3 (bat t ht) (rowOf t q) (colOf t r) = i := by
  have h0 : (i 0).val < 4 := (i 0).isLt
  have h1 : (i 1).val < 4096 := (i 1).isLt
  have h2 : (i 2).val < 4096 := (i 2).isLt
  refine ⟨32 * (i 0).val + 8 * ((i 1).val / 1024) + (i 2).val / 512, by omega, ⟨(i 1).val % 1024, by omega⟩, ⟨(i 2).val % 512, by omega⟩, ?_⟩
  refine Eq.trans ?_ (eq_ix3 i).symm
  congr 1 <;> apply Fin.ext <;> simp only <;> omega

variable (V : (c : Dev nD) → (b : Ref sig .tc) → Buf (Elt Ideal) ((c : Thread nD τ).loc b)) (c : Dev nD) (t : Fin cfg3.N)

theorem zero3 : (![0, 0, 0] : Fin 3 → Nat) = fun _ => 0 := funext fun a => by fin_cases a <;> rfl

theorem lt128 : t.val < 128 := lt_of_lt_of_eq t.isLt N_3

theorem idx3 : ∀ t : Fin cfg3.N,
    (win3_0.index t (0 : Fin 3) = t.val / 32 ∧ win3_0.index t (1 : Fin 3) = t.val / 8 % 4 ∧ win3_0.index t (2 : Fin 3) = 0)
    ∧ (win3_1.index t (0 : Fin 3) = t.val / 32 ∧ win3_1.index t (1 : Fin 3) = t.val % 8 ∧ win3_1.index t (2 : Fin 3) = 0)
    ∧ (win3_2.index t (0 : Fin 3) = t.val / 32 ∧ win3_2.index t (1 : Fin 3) = t.val / 8 % 4 ∧ win3_2.index t (2 : Fin 3) = 0)
    ∧ (win3_3.index t (0 : Fin 3) = t.val / 32 ∧ win3_3.index t (1 : Fin 3) = 0 ∧ win3_3.index t (2 : Fin 3) = t.val % 8)
    ∧ win3_4.index t (0 : Fin 3) = t.val / 32 ∧ win3_4.index t (1 : Fin 3) = t.val / 8 % 4 ∧ win3_4.index t (2 : Fin 3) = t.val % 8 :=
  (by decide +kernel : ∀ t : Fin grid3.N, _)

theorem iblk3_0_apply (p : Fin 1) (q : Fin 1024) (d : Fin 256) :
    (Hand.iblk3 V c 0 t : Vec Ideal S1x1024x256 .bf16) (ix3 p q d) = (V c main_v7 : S4x4096x256.Idx → EReal) (ix3 (bat t.val (lt128 t)) (rowOf t.val q) d) := by
  obtain ⟨⟨e0, e1, e2⟩, -⟩ := idx3 t
  show (V c main_v7 : S4x4096x256.Idx → EReal) (((cfg3.win 0).blk t).view.emb (ix3 p q d)) = _
  refine congrArg _ (funext fun a => Fin.ext ?_)
  match a with
  | ⟨0, _⟩ => show win3_0.index t (0 : Fin 3) * 1 + 1 * p.val = t.val / 32; omega
  | ⟨1, _⟩ => show win3_0.index t (1 : Fin 3) * 1024 + 1 * q.val = t.val / 8 % 4 * 1024 + q.val; omega
  | ⟨2, _⟩ => show win3_0.index t (2 : Fin 3) * 256 + 1 * d.val = d.val; omega

theorem iblk3_1_apply (p : Fin 1) (r : Fin 512) (d : Fin 256) :
    (Hand.iblk3 V c 1 t : Vec Ideal S1x512x256 .bf16) (ix3 p r d) = (V c main_v12 : S4x4096x256.Idx → EReal) (ix3 (bat t.val (lt128 t)) (colOf t.val r) d) := by
  obtain ⟨-, ⟨e0, e1, e2⟩, -⟩ := idx3 t
  show (V c main_v12 : S4x4096x256.Idx → EReal) (((cfg3.win 1).blk t).view.emb (ix3 p r d)) = _
  refine congrArg _ (funext fun a => Fin.ext ?_)
  match a with
  | ⟨0, _⟩ => show win3_1.index t (0 : Fin 3) * 1 + 1 * p.val = t.val / 32; omega
  | ⟨1, _⟩ => show win3_1.index t (1 : Fin 3) * 512 + 1 * r.val = t.val % 8 * 512 + r.val; omega
  | ⟨2, _⟩ => show win3_1.index t (2 : Fin 3) * 256 + 1 * d.val = d.val; omega

theorem iblk3_2_apply (p : Fin 1) (q : Fin 1024) (u : Fin 1) :
    (Hand.iblk3 V c 2 t : Vec Ideal S1x1024x1 .f32) (ix3 p q u) = (V c main_v14_0 : S4x4096x1.Idx → EReal) (ix3 (bat t.val (lt128 t)) (rowOf t.val q) (0 : Fin 1)) := by
  obtain ⟨-, -, ⟨e0, e1, e2⟩, -⟩ := idx3 t
  show (V c main_v14_0 : S4x4096x1.Idx → EReal) (((cfg3.win 2).blk t).view.emb (ix3 p q u)) = _
  refine congrArg _ (funext fun a => Fin.ext ?_)
  match a with
  | ⟨0, _⟩ => show win3_2.index t (0 : Fin 3) * 1 + 1 * p.val = t.val / 32; omega
  | ⟨1, _⟩ => show win3_2.index t (1 : Fin 3) * 1024 + 1 * q.val = t.val / 8 % 4 * 1024 + q.val; omega
  | ⟨2, _⟩ => show win3_2.index t (2 : Fin 3) * 1 + 1 * u.val = 0; omega

theorem iblk3_3_apply (p : Fin 1) (u : Fin 1) (r : Fin 512) :
    (Hand.iblk3 V c 3 t : Vec Ideal S1x1x512 .f32) (ix3 p u r) = (V c main_v14_1 : S4x1x4096.Idx → EReal) (ix3 (bat t.val (lt128 t)) (0 : Fin 1) (colOf t.val r)) := by
  obtain ⟨-, -, -, ⟨e0, e1, e2⟩, -⟩ := idx3 t
  show (V c main_v14_1 : S4x1x4096.Idx → EReal) (((cfg3.win 3).blk t).view.emb (ix3 p u r)) = _
  refine congrArg _ (funext fun a => Fin.ext ?_)
  match a with
  | ⟨0, _⟩ => show win3_3.index t (0 : Fin 3) * 1 + 1 * p.val = t.val / 32; omega
  | ⟨1, _⟩ => show win3_3.index t (1 : Fin 3) * 1 + 1 * u.val = 0; omega
  | ⟨2, _⟩ => show win3_3.index t (2 : Fin 3) * 512 + 1 * r.val = t.val % 8 * 512 + r.val; omega

theorem emb3_4 (p : Fin 1) (q : Fin 1024) (r : Fin 512) :
    ((cfg3.win 4).blk t).view.emb (ix3 p q r) = (ix3 (bat t.val (lt128 t)) (rowOf t.val q) (colOf t.val r) : S4x4096x4096.Idx) := by
  obtain ⟨-, -, -, -, e0, e1, e2⟩ := idx3 t
  funext a; apply Fin.ext
  match a with
  | ⟨0, _⟩ => show win3_4.index t (0 : Fin 3) * 1 + 1 * p.val = t.val / 32; omega
  | ⟨1, _⟩ => show win3_4.index t (1 : Fin 3) * 1024 + 1 * q.val = t.val / 8 % 4 * 1024 + q.val; omega
  | ⟨2, _⟩ => show win3_4.index t (2 : Fin 3) * 512 + 1 * r.val = t.val % 8 * 512 + r.val; omega

-- both outputs are cut alike
theorem emb3_5 (p : Fin 1) (q : Fin 1024) (r : Fin 512) :
    ((cfg3.win 5).blk t).view.emb (ix3 p q r) = (ix3 (bat t.val (lt128 t)) (rowOf t.val q) (colOf t.val r) : S4x4096x4096.Idx) :=
  emb3_4 t p q r

theorem arr3_4_eq : (Hand.dat3 V c).arrAt 4 cfg3.N = rowNorm (V c main_v7) (V c main_v12) (V c main_v14_0) := by
  refine (Hand.dat3 V c).arrAt_of_emb 4 _ flush3_4 (fun t => ?_) fun i => ?_
  · show (cfg3.win 4).cut (grid3.coords t) ((Hand.dat3 V c).after 4 t) = _
    rw [Hand.after3_4]
    unfold Hand.out3_4
    rw [View.canon_unit_zero zero3]
    simp only [View.ld_unit_zero (S := S1x1024x256) zero3, View.ld_unit_zero (S := S1x512x256) zero3,
      View.ld_unit_zero (S := S1x1024x1) zero3]
    refine funext fun (j : S1x1024x512.Idx) => ?_
    obtain ⟨p, q, r, rfl⟩ : ∃ (p : Fin 1) (q : Fin 1024) (r : Fin 512), j = ix3 p q r := ⟨j 0, j 1, j 2, eq_ix3 j⟩
    show k3_pay2 (Hand.iblk3 V c 0 t) (Hand.iblk3 V c 1 t) (Hand.iblk3 V c 2 t) (ix3 p q r)
      = rowNorm (V c main_v7) (V c main_v12) (V c main_v14_0) (((cfg3.win 4).blk t).view.emb (ix3 p q r))
    rw [pay2_apply, emb3_4]
    simp only [iblk3_0_apply, iblk3_1_apply, iblk3_2_apply]
    rfl
  · obtain ⟨t, ht, q, r, rfl⟩ := exists_blk i
    exact ⟨⟨t, N_3 ▸ ht⟩, ix3 0 q r, emb3_4 _ 0 q r⟩

theorem arr3_5_eq : (Hand.dat3 V c).arrAt 5 cfg3.N = colNorm (V c main_v7) (V c main_v12) (V c main_v14_1) := by
  refine (Hand.dat3 V c).arrAt_of_emb 5 _ flush3_5 (fun t => ?_) fun i => ?_
  · show (cfg3.win 5).cut (grid3.coords t) ((Hand.dat3 V c).after 5 t) = _
    rw [Hand.after3_5]
    unfold Hand.out3_5
    rw [View.canon_unit_zero zero3]
    simp only [View.ld_unit_zero (S := S1x1024x256) zero3, View.ld_unit_zero (S := S1x512x256) zero3,
      View.ld_unit_zero (S := S1x1x512) zero3]
    refine funext fun (j : S1x1024x512.Idx) => ?_
    obtain ⟨p, q, r, rfl⟩ : ∃ (p : Fin 1) (q : Fin 1024) (r : Fin 512), j = ix3 p q r := ⟨j 0, j 1, j 2, eq_ix3 j⟩
    show k3_pay3 (Hand.iblk3 V c 0 t) (Hand.iblk3 V c 1 t) (Hand.iblk3 V c 3 t) (ix3 p q r)
      = colNorm (V c main_v7) (V c main_v12) (V c main_v14_1) (((cfg3.win 5).blk t).view.emb (ix3 p q r))
    rw [pay3_apply, emb3_5]
    simp only [iblk3_0_apply, iblk3_1_apply, iblk3_3_apply]
    rfl
  · obtain ⟨t, ht, q, r, rfl⟩ := exists_blk i
    exact ⟨⟨t, N_3 ▸ ht⟩, ix3 0 q r, emb3_5 _ 0 q r⟩

end Cert.KernelIdeal.Val.Norm3

end
-- ==== Proof.Val.Lse.lean ====
import Idealize.ShloMosaic.PureOps.Ideal
import Idealize.ShloMosaic.PureOps.Ideal.Laws
import Mathlib.Data.EReal.Basic
import Mathlib.Data.EReal.Operations
import Mathlib.Data.EReal.Inv
import Mathlib.Data.Finset.Lattice.Fold
import Mathlib.Data.Finset.Fold
import Mathlib.Algebra.BigOperators.Group.Finset.Basic
import Mathlib.Analysis.SpecialFunctions.Log.Basic
import Mathlib.Analysis.SpecialFunctions.Exp

open Idealize.ShloMosaic
open scoped BigOperators

namespace Cert.KernelIdeal.Val

noncomputable section

variable {ι : Type*}

theorem coe_finset_sum (A : Finset ι) (f : ι → ℝ) :
    ((∑ n ∈ A, f n : ℝ) : EReal) = ∑ n ∈ A, (f n : EReal) := by
  induction A using Finset.cons_induction with
  | empty => rw [Finset.sum_empty, Finset.sum_empty, EReal.coe_zero]
  | cons a A ha ih => rw [Finset.sum_cons, Finset.sum_cons, EReal.coe_add, ih]

theorem sum_coe_mul_coe (A : Finset ι) (a b : ι → ℝ) :
    ∑ k ∈ A, ((a k : EReal) * (b k : EReal)) = ((∑ k ∈ A, a k * b k : ℝ) : EReal) := by
  rw [coe_finset_sum]
  exact Finset.sum_congr rfl fun k _ => (EReal.coe_mul _ _).symm

theorem coe_max (x y : ℝ) : ((max x y : ℝ) : EReal) = max (x : EReal) (y : EReal) :=
  EReal.coe_strictMono.monotone.map_max

theorem fold_max_bot_coe (A : Finset ι) (hA : A.Nonempty) (f : ι → ℝ) :
    A.fold max (⊥ : EReal) (fun k => (f k : EReal)) = ((A.sup' hA f : ℝ) : EReal) := by
  induction hA using Finset.Nonempty.cons_induction with
  | singleton a => rw [Finset.fold_singleton, Finset.sup'_singleton]; exact max_bot_right _
  | cons a A ha hA ih => rw [Finset.fold_cons, ih, Finset.sup'_cons hA, coe_max]

theorem fold_max_bot_of_coe (A : Finset ι) (hA : A.Nonempty) (g : ι → EReal) (f : ι → ℝ)
    (hg : ∀ k ∈ A, g k = (f k : EReal)) :
    A.fold max (⊥ : EReal) g = ((A.sup' hA f : ℝ) : EReal) := by
  rw [← fold_max_bot_coe A hA f]
  exact Finset.fold_congr hg

theorem fold_maximumf_eq_fold_max {φ : FTy} (A : Finset ι) (b : EReal) (g : ι → EReal) :
    A.fold (FloatOps.maximumf (F := Ideal) (φ := φ)) b g = A.fold max b g :=
  rfl

def Rep (s : ι → ℝ) (A : Finset ι) (m l : EReal) : Prop :=
  (A = ∅ ∧ m = ⊥ ∧ l = 0) ∨
    (∃ h : A.Nonempty, m = ((A.sup' h s : ℝ) : EReal) ∧
      l = ((∑ n ∈ A, Real.exp (s n - A.sup' h s) : ℝ) : EReal))

theorem rep_empty (s : ι → ℝ) : Rep s ∅ ⊥ 0 :=
  Or.inl ⟨rfl, rfl, rfl⟩

theorem Rep.eq_of_nonempty {s : ι → ℝ} {A : Finset ι} {m l : EReal} (hR : Rep s A m l) (hA : A.Nonempty) :
    m = ((A.sup' hA s : ℝ) : EReal) ∧ l = ((∑ n ∈ A, Real.exp (s n - A.sup' hA s) : ℝ) : EReal) := by
  rcases hR with ⟨h, _, _⟩ | ⟨_, hm, hl⟩
  · exact absurd h hA.ne_empty
  · exact ⟨hm, hl⟩

theorem sum_exp_shift (s : ι → ℝ) (B : Finset ι) (c M : ℝ) :
    (∑ n ∈ B, Real.exp (s n - c)) * Real.exp (c - M) = ∑ n ∈ B, Real.exp (s n - M) := by
  rw [Finset.sum_mul]
  refine Finset.sum_congr rfl fun n _ => ?_
  rw [← Real.exp_add]
  congr 1
  ring

theorem exp_coe_sub_coe (x y : ℝ) : Ideal.exp ((x : EReal) - (y : EReal)) = ((Real.exp (x - y) : ℝ) : EReal) := by
  rw [← EReal.coe_sub, Ideal.exp_coe]

theorem rep_step [DecidableEq ι] {s : ι → ℝ} {A B : Finset ι} {m l : EReal} (hR : Rep s A m l)
    (hB : B.Nonempty) (hdisj : Disjoint A B) (c : ℝ) (hc : ∀ n ∈ B, s n ≤ c) :
    Rep s (A ∪ B) (max m ((B.sup' hB s : ℝ) : EReal))
      (Ideal.exp (m - max m ((B.sup' hB s : ℝ) : EReal)) * l
        + ((∑ n ∈ B, Real.exp (s n - c) : ℝ) : EReal)
            * Ideal.exp ((c : EReal) - max m ((B.sup' hB s : ℝ) : EReal))) := by
  rcases hR with ⟨hA, hm, hl⟩ | ⟨hA, hm, hl⟩
  ·
    subst hA hm hl
    rw [Finset.empty_union, max_eq_right bot_le, EReal.bot_sub, Ideal.exp_bot, mul_zero, zero_add,
      exp_coe_sub_coe, ← EReal.coe_mul, sum_exp_shift]
    exact Or.inr ⟨hB, rfl, rfl⟩
  ·
    have hU : (A ∪ B).Nonempty := hA.mono Finset.subset_union_left
    have hsup : (A ∪ B).sup' hU s = max (A.sup' hA s) (B.sup' hB s) := Finset.sup'_union hA hB s
    refine Or.inr ⟨hU, ?_, ?_⟩
    · rw [hm, ← coe_max, hsup]
    · rw [hm, hl, ← coe_max, exp_coe_sub_coe, exp_coe_sub_coe, ← EReal.coe_mul, ← EReal.coe_mul,
        ← EReal.coe_add, hsup, Finset.sum_union hdisj, mul_comm (Real.exp _) (∑ n ∈ A, _),
        sum_exp_shift, sum_exp_shift]

theorem rep_step_of_eq [DecidableEq ι] {s : ι → ℝ} {A B : Finset ι} {m l : EReal} (hR : Rep s A m l)
    (hB : B.Nonempty) (hdisj : Disjoint A B) (c : ℝ) (hc : ∀ n ∈ B, s n ≤ c)
    {mt cc e m' l' : EReal} (hmt : mt = ((B.sup' hB s : ℝ) : EReal)) (hcc : cc = (c : EReal))
    (he : e = ((∑ n ∈ B, Real.exp (s n - c) : ℝ) : EReal)) (hm' : m' = max m mt)
    (hl' : l' = Ideal.exp (m - m') * l + e * Ideal.exp (cc - m')) :
    Rep s (A ∪ B) m' l' := by
  subst hmt hcc he hm' hl'
  exact rep_step hR hB hdisj c hc

theorem softmax_of_rep_real {s : ι → ℝ} {A : Finset ι} {m l : EReal} (hR : Rep s A m l) (hA : A.Nonempty)
    (x : ℝ) :
    Ideal.exp ((x : EReal) - (m + Ideal.log l))
      = Ideal.div (Ideal.exp ((x : EReal) - ((A.sup' hA s : ℝ) : EReal)))
          ((∑ n' ∈ A, Real.exp (s n' - A.sup' hA s) : ℝ) : EReal) := by
  obtain ⟨hm, hl⟩ := hR.eq_of_nonempty hA
  have hL : 0 < ∑ n' ∈ A, Real.exp (s n' - A.sup' hA s) :=
    Finset.sum_pos (fun n _ => Real.exp_pos _) hA
  rw [hm, hl, Ideal.log_coe, if_neg (not_le.mpr hL), ← EReal.coe_add, exp_coe_sub_coe, exp_coe_sub_coe,
    Ideal.div, if_neg (EReal.coe_ne_zero.mpr hL.ne'), ← EReal.coe_inv, ← EReal.coe_mul]
  congr 1
  rw [sub_add_eq_sub_sub, Real.exp_sub, Real.exp_log hL, div_eq_mul_inv]

theorem softmax_of_rep {s : ι → ℝ} {A : Finset ι} {m l : EReal} (hR : Rep s A m l) (hA : A.Nonempty)
    (n : ι) :
    Ideal.exp (((s n : ℝ) : EReal) - (m + Ideal.log l))
      = Ideal.div (Ideal.exp (((s n : ℝ) : EReal) - ((A.sup' hA s : ℝ) : EReal)))
          ((∑ n' ∈ A, Real.exp (s n' - A.sup' hA s) : ℝ) : EReal) :=
  softmax_of_rep_real hR hA (s n)

theorem ofBits_quarter_f32 : Ideal.ofBits .f32 0x3E800000#32 = ((1 / 4 : ℝ) : EReal) := by
  simp [Ideal.ofBits, Ideal.ieee, -EReal.coe_mul]; norm_num

theorem ofBits_four_f32 : Ideal.ofBits .f32 0x40800000#32 = ((4 : ℝ) : EReal) := by
  simp [Ideal.ofBits, Ideal.ieee, -EReal.coe_mul]; norm_num

theorem ofBits_neg_inf_f32 : Ideal.ofBits .f32 0xFF800000#32 = ⊥ := by
  simp [Ideal.ofBits, Ideal.ieee]

theorem ofBits_zero_f32 : Ideal.ofBits .f32 0x00000000#32 = 0 := Ideal.ofBits_zero_f32

theorem div_four (x : EReal) : Ideal.div x ((4 : ℝ) : EReal) = x * ((1 / 4 : ℝ) : EReal) :=
  Ideal.div_coe (by norm_num) x

end

end Cert.KernelIdeal.Val
-- ==== Proof.Val.Reduce.lean ====
import proofs.«423235_j29944511988266_3_alg».proof.Proof.Val.Lse
import Idealize.ShloMosaic.PureOps.Ideal
import Idealize.ShloMosaic.PureOps.Ideal.Laws
import Idealize.ShloMosaic.PureOps.Reduce
import Mathlib.Data.Finset.Image
import Mathlib.Data.Fintype.Basic

open Idealize.ShloMosaic
open scoped BigOperators

namespace Cert.KernelIdeal.Val

noncomputable section

section Tile
variable {ι κ : Type*} [DecidableEq ι] [Fintype κ]

theorem rep_step_tile {s : ι → ℝ} {A : Finset ι} {m l : EReal} (hR : Rep s A m l) (g : κ → ι)
    (hg : Function.Injective g) (hne : (Finset.univ : Finset κ).Nonempty) (hdisj : ∀ k, g k ∉ A) (c : ℝ)
    (hc : ∀ k, s (g k) ≤ c) {mt cc e m' l' : EReal}
    (hmt : mt = ((Finset.univ.sup' hne (fun k => s (g k)) : ℝ) : EReal)) (hcc : cc = (c : EReal))
    (he : e = ((∑ k, Real.exp (s (g k) - c) : ℝ) : EReal)) (hm' : m' = max m mt)
    (hl' : l' = Ideal.exp (m - m') * l + e * Ideal.exp (cc - m')) :
    Rep s (A ∪ Finset.univ.image g) m' l' := by
  have hB : (Finset.univ.image g).Nonempty := hne.image g
  refine rep_step_of_eq hR hB ?_ c ?_ ?_ hcc ?_ hm' hl'
  · rw [Finset.disjoint_right]
    intro x hx
    obtain ⟨k, _, rfl⟩ := Finset.mem_image.1 hx
    exact hdisj k
  · intro n hn
    obtain ⟨k, _, rfl⟩ := Finset.mem_image.1 hn
    exact hc k
  · rw [hmt, Finset.sup'_image hB s]
    rfl
  · rw [he, Finset.sum_image fun k _ k' _ e => hg e]

end Tile

section OneAxis
variable {φ : FTy} {s t : Shape} {a : Fin s.rank}

theorem max_bot_coe (x : ℝ) : max (⊥ : EReal) (x : EReal) = (x : EReal) :=
  max_eq_right bot_le

theorem multiReduction_maximumf_coe (src : FVec Ideal s φ) (acc : BitVec φ.bits) (h : s.Reduces [a] t)
    (hφ : FKind.Formats φ) (hacc : acc = FKind.maximumf.neutral φ hφ) (hbot : Ideal.ofBits φ acc = ⊥) (j : t.Idx)
    (r : Fin (s.size a) → ℝ) (hr : ∀ k, src (h.lift j k) = (r k : EReal))
    (hne : (Finset.univ : Finset (Fin (s.size a))).Nonempty) :
    multiReduction .maximumf [a] t src acc h hφ hacc j = ((Finset.univ.sup' hne r : ℝ) : EReal) := by
  rw [Ideal.multiReduction_maximumf_single, Ideal.ofBits_def, hbot]
  exact fold_max_bot_of_coe _ hne _ r fun k _ => hr k

theorem multiReduction_maximumf_f32_coe (src : FVec Ideal s .f32) (h : s.Reduces [a] t) (hφ : FKind.Formats .f32)
    (hacc : (0xFF800000#32 : BitVec 32) = FKind.maximumf.neutral .f32 hφ) (j : t.Idx) (r : Fin (s.size a) → ℝ)
    (hr : ∀ k, src (h.lift j k) = (r k : EReal)) (hne : (Finset.univ : Finset (Fin (s.size a))).Nonempty) :
    multiReduction .maximumf [a] t src 0xFF800000#32 h hφ hacc j = ((Finset.univ.sup' hne r : ℝ) : EReal) :=
  multiReduction_maximumf_coe src _ h hφ hacc ofBits_neg_inf_f32 j r hr hne

theorem hostReduce_maximumf_coe {u : Shape} (x : FVec Ideal s φ) (init : FVec Ideal u φ) (h' : s.ReducesTo [a] t)
    (h : s.Reduces [a] t) (hu : 0 < u.numel) (hinit : init (Shape.Idx.first hu) = ⊥) (j : t.Idx)
    (r : Fin (s.size a) → ℝ) (hr : ∀ k, x (h.lift j k) = (r k : EReal))
    (hne : (Finset.univ : Finset (Fin (s.size a))).Nonempty) :
    Host.reduce (FloatOps.maximumf (F := Ideal) (φ := φ)) x init h' hu j = ((Finset.univ.sup' hne r : ℝ) : EReal) := by
  rw [Host.reduce_eq_fold_single _ x init h' h hu j, hinit, fold_maximumf_eq_fold_max]
  exact fold_max_bot_of_coe _ hne _ r fun k _ => hr k

theorem hostReduce_maximumf_f32_coe {u : Shape} (x : FVec Ideal s .f32) (h' : s.ReducesTo [a] t) (h : s.Reduces [a] t)
    (hu : 0 < u.numel) (j : t.Idx) (r : Fin (s.size a) → ℝ) (hr : ∀ k, x (h.lift j k) = (r k : EReal))
    (hne : (Finset.univ : Finset (Fin (s.size a))).Nonempty) :
    Host.reduce (FloatOps.maximumf (F := Ideal) (φ := .f32)) x (constant u .f32 0xFF800000#32) h' hu j
      = ((Finset.univ.sup' hne r : ℝ) : EReal) :=
  hostReduce_maximumf_coe x _ h' h hu ofBits_neg_inf_f32 j r hr hne

theorem multiReduction_add_coe (src : FVec Ideal s φ) (acc : BitVec φ.bits) (h : s.Reduces [a] t)
    (hφ : FKind.Formats φ) (hacc : acc = FKind.add.neutral φ hφ) (j : t.Idx) (r : Fin (s.size a) → ℝ)
    (hr : ∀ k, src (h.lift j k) = (r k : EReal)) :
    multiReduction .add [a] t src acc h hφ hacc j = ((∑ k, r k : ℝ) : EReal) := by
  rw [Ideal.multiReduction_add_single, coe_finset_sum]
  exact Finset.sum_congr rfl fun k _ => hr k

theorem hostReduceAdd_coe {u : Shape} (x : FVec Ideal s φ) (init : FVec Ideal u φ) (h' : s.ReducesTo [a] t)
    (h : s.Reduces [a] t) (hu : 0 < u.numel) (hinit : init (Shape.Idx.first hu) = 0) (j : t.Idx)
    (r : Fin (s.size a) → ℝ) (hr : ∀ k, x (h.lift j k) = (r k : EReal)) :
    Host.reduceAdd x init h' hu j = ((∑ k, r k : ℝ) : EReal) := by
  unfold Host.reduceAdd
  rw [Ideal.hostReduceAdd_def, Ideal.hostReduceAdd_single h' h, hinit, zero_add, coe_finset_sum]
  exact Finset.sum_congr rfl fun k _ => hr k

theorem hostReduceAdd_f32_coe {u : Shape} (x : FVec Ideal s .f32) (h' : s.ReducesTo [a] t) (h : s.Reduces [a] t)
    (hu : 0 < u.numel) (j : t.Idx) (r : Fin (s.size a) → ℝ) (hr : ∀ k, x (h.lift j k) = (r k : EReal)) :
    Host.reduceAdd x (constant u .f32 0x00000000#32) h' hu j = ((∑ k, r k : ℝ) : EReal) :=
  hostReduceAdd_coe x _ h' h hu Ideal.ofBits_zero_f32 j r hr

end OneAxis

end

end Cert.KernelIdeal.Val
-- ==== Proof.Val.StatsTile.lean ====
import proofs.«423235_j29944511988266_3_alg».proof.Proof.Val.Reduce
import proofs.«423235_j29944511988266_3_alg».proof.Proof.LibDotNT
import proofs.«423235_j29944511988266_3_alg».proof.Proof.Gen.KernelIdeal.Skeleton
import Idealize.ShloMosaic.Lib.ValueIdx
import Idealize.ShloMosaic.Lib.ValueLayout
import Idealize.ShloMosaic.Lib.Pipeline.Value

noncomputable section

open Idealize.ShloMosaic Idealize.ShloMosaic.ValueIdx
open scoped BigOperators

namespace Cert.KernelIdeal.Val

open Cert.KernelIdeal Cert.KernelIdeal.Gen

theorem ne1024 : (Finset.univ : Finset (Fin 1024)).Nonempty := ⟨0, Finset.mem_univ _⟩

def tileS (qr kr : S1x1024x256.Idx → ℝ) (r cc : Fin 1024) : ℝ :=
  ∑ d : Fin 256, qr (ix3 0 r d) * kr (ix3 0 cc d)

def tileC (qr kr : S1x1024x256.Idx → ℝ) : ℝ :=
  Finset.univ.sup' ne1024 fun r : Fin 1024 => Finset.univ.sup' ne1024 (tileS qr kr r)

theorem tileS_le_tileC (qr kr : S1x1024x256.Idx → ℝ) (r cc : Fin 1024) : tileS qr kr r cc ≤ tileC qr kr :=
  (Finset.le_sup' (tileS qr kr r) (Finset.mem_univ cc)).trans
    (Finset.le_sup' (fun r : Fin 1024 => Finset.univ.sup' ne1024 (tileS qr kr r)) (Finset.mem_univ r))

theorem lift_row (r cc : Fin 1024) : reduces_S1024x1024_S1024.lift (ix1 r) cc = ix2 r cc :=
  funext fun a => by match a with | ⟨0, _⟩ => rfl | ⟨1, _⟩ => rfl

theorem lift_col (cc r : Fin 1024) : reduces_S1024x1024_S1024_2.lift (ix1 cc) r = ix2 r cc :=
  funext fun a => by match a with | ⟨0, _⟩ => rfl | ⟨1, _⟩ => rfl

theorem lift_all (r : Fin 1024) : reduces_S1024x1_S1.lift (ix1 (0 : Fin 1)) r = ix2 r (0 : Fin 1) :=
  funext fun a => by match a with | ⟨0, _⟩ => rfl | ⟨1, _⟩ => rfl

theorem addUnit_col (v : FVec Ideal S1024 .f32) (r : Fin 1024) :
    shapeCast S1024x1 v shapeCasts_S1024_S1024x1 (ix2 r (0 : Fin 1)) = v (ix1 r) :=
  shapeCast_apply v _ _ _ (by
    rw [Shape.rowMajor_val_one, Shape.rowMajor_val_two]
    show r.val = r.val * 1 + 0
    omega)

-- a single entry spread over a matrix is read back at every index
theorem bcast11 {α : Type} {a b : ℕ} (v : (⟨2, ![1, 1]⟩ : Shape).Idx → α)
    (h : (⟨2, ![1, 1]⟩ : Shape).Broadcasts ⟨2, ![a, b]⟩) (x : (⟨2, ![a, b]⟩ : Shape).Idx) :
    broadcastTo ⟨2, ![a, b]⟩ v h x = v (ix2 (0 : Fin 1) (0 : Fin 1)) :=
  broadcastTo_apply v h x _ fun ax => by match ax with | ⟨0, _⟩ => rfl | ⟨1, _⟩ => rfl

section Tile
variable {q k : Vec Ideal S1x1024x256 .bf16} {qr kr : S1x1024x256.Idx → ℝ}
  (hq : ∀ x, q x = ((qr x : ℝ) : EReal)) (hk : ∀ x, k x = ((kr x : ℝ) : EReal))

include hq hk

theorem pay6_apply (r cc : Fin 1024) : k2_pay6 q k (ix2 r cc) = ((tileS qr kr r cc : ℝ) : EReal) := by
  unfold k2_pay6
  refine (Cert.LibDotNT.matmul_nt_apply 1024 256 1024 none _ _ r cc).trans ?_
  unfold tileS
  rw [← sum_coe_mul_coe]
  refine Finset.sum_congr rfl fun d _ => ?_
  rw [shapeCast_1ab_ab_apply, shapeCast_1ab_ab_apply, hq, hk]

theorem pay7_apply (r : Fin 1024) :
    k2_pay7 q k (ix2 r (0 : Fin 1)) = ((Finset.univ.sup' ne1024 (tileS qr kr r) : ℝ) : EReal) := by
  unfold k2_pay7
  exact (addUnit_col _ r).trans (multiReduction_maximumf_f32_coe (k2_pay6 q k) reduces_S1024x1024_S1024 (.inl rfl) rfl (ix1 r)
    (tileS qr kr r) (fun cc => (congrArg (k2_pay6 q k) (lift_row r cc)).trans (pay6_apply hq hk r cc)) ne1024)

theorem pay8_apply (cc : Fin 1024) :
    k2_pay8 q k (ix2 (0 : Fin 1) cc) = ((Finset.univ.sup' ne1024 (fun r => tileS qr kr r cc) : ℝ) : EReal) := by
  unfold k2_pay8
  exact (shapeCast_a_1a_apply _ _ 0 cc).trans (multiReduction_maximumf_f32_coe (k2_pay6 q k) reduces_S1024x1024_S1024_2 (.inl rfl) rfl
    (ix1 cc) (fun r => tileS qr kr r cc) (fun r => (congrArg (k2_pay6 q k) (lift_col cc r)).trans (pay6_apply hq hk r cc)) ne1024)

theorem pay9_apply : k2_pay9 q k (ix2 (0 : Fin 1) (0 : Fin 1)) = ((tileC qr kr : ℝ) : EReal) := by
  unfold k2_pay9
  exact (shapeCast_a_1a_apply _ _ 0 0).trans (multiReduction_maximumf_f32_coe (k2_pay7 q k) reduces_S1024x1_S1 (.inl rfl) rfl
    (ix1 (0 : Fin 1)) (fun r => Finset.univ.sup' ne1024 (tileS qr kr r))
    (fun r => (congrArg (k2_pay7 q k) (lift_all r)).trans (pay7_apply hq hk r)) ne1024)

theorem pay10_apply (r cc : Fin 1024) :
    k2_pay10 q k (ix2 r cc) = ((Real.exp (tileS qr kr r cc - tileC qr kr) : ℝ) : EReal) := by
  unfold k2_pay10
  show Ideal.exp (k2_pay6 q k (ix2 r cc) - broadcastTo S1024x1024 (k2_pay9 q k) broadcasts_S1x1_S1024x1024 (ix2 r cc)) = _
  rw [bcast11, pay6_apply hq hk, pay9_apply hq hk, exp_coe_sub_coe]

theorem pay11_apply (r : Fin 1024) :
    k2_pay11 q k (ix2 r (0 : Fin 1)) = ((∑ cc : Fin 1024, Real.exp (tileS qr kr r cc - tileC qr kr) : ℝ) : EReal) := by
  unfold k2_pay11
  exact (addUnit_col _ r).trans (multiReduction_add_coe (k2_pay10 q k) _ reduces_S1024x1024_S1024 (.inl rfl) rfl (ix1 r)
    (fun cc => Real.exp (tileS qr kr r cc - tileC qr kr))
    fun cc => (congrArg (k2_pay10 q k) (lift_row r cc)).trans (pay10_apply hq hk r cc))

theorem pay12_apply (cc : Fin 1024) :
    k2_pay12 q k (ix2 (0 : Fin 1) cc) = ((∑ r : Fin 1024, Real.exp (tileS qr kr r cc - tileC qr kr) : ℝ) : EReal) := by
  unfold k2_pay12
  exact (shapeCast_a_1a_apply _ _ 0 cc).trans (multiReduction_add_coe (k2_pay10 q k) _ reduces_S1024x1024_S1024_2 (.inl rfl) rfl (ix1 cc)
    (fun r => Real.exp (tileS qr kr r cc - tileC qr kr))
    fun r => (congrArg (k2_pay10 q k) (lift_col cc r)).trans (pay10_apply hq hk r cc))

end Tile

end Cert.KernelIdeal.Val

end
-- ==== Proof.Val.StatsBlk.lean ====
import proofs.«423235_j29944511988266_3_alg».proof.Proof.KI.Reg2Defs
import proofs.«423235_j29944511988266_3_alg».proof.Proof.Gen.KernelIdeal.Points
import Idealize.ShloMosaic.Lib.Pipeline.Value
import Idealize.ShloMosaic.Lib.ValueIdx

noncomputable section

namespace Cert.KernelIdeal.Val

open Cert.KernelIdeal Cert.KernelIdeal.Gen
open Idealize.ShloMosaic Idealize.ShloMosaic.TcCoe Idealize.ShloMosaic.ValueIdx
open Idealize.ShloMosaic.Pipeline (Dat)

theorem N2_eq : cfg2.N = 64 := N_2

def ptB (t : Fin cfg2.N) : Fin 4 := ⟨t.val / 16, by have h1 := t.isLt; have h2 : cfg2.N = 64 := N2_eq; omega⟩
def ptI (t : Fin cfg2.N) : Fin 4 := ⟨t.val / 4 % 4, by omega⟩
def ptJ (t : Fin cfg2.N) : Fin 4 := ⟨t.val % 4, by omega⟩

theorem ptI_val (t : Fin cfg2.N) : (ptI t).val = t.val / 4 % 4 := rfl
theorem ptJ_val (t : Fin cfg2.N) : (ptJ t).val = t.val % 4 := rfl

def blkRow (i : Fin 4) (r : Fin 1024) : Fin 4096 := ⟨1024 * i.val + r.val, by omega⟩

theorem blkRow_inj {i : Fin 4} {r r' : Fin 1024} (h : blkRow i r = blkRow i r') : r = r' := by
  have hv : 1024 * i.val + r.val = 1024 * i.val + r'.val := congrArg Fin.val h
  exact Fin.ext (by omega)

def below (n : ℕ) : Finset (Fin 4096) := Finset.univ.filter fun r => r.val < 1024 * n

theorem mem_below {n : ℕ} {r : Fin 4096} : r ∈ below n ↔ r.val < 1024 * n :=
  Finset.mem_filter.trans (and_iff_right (Finset.mem_univ _))

theorem below_zero : below 0 = ∅ := Finset.filter_eq_empty_iff.2 fun r _ h => by omega

theorem below_four : below 4 = Finset.univ := Finset.filter_true_of_mem fun r _ => by omega

theorem blkRow_not_mem_below (i : Fin 4) (r : Fin 1024) : blkRow i r ∉ below i.val := fun h => by
  have : 1024 * i.val + r.val < 1024 * i.val := mem_below.1 h
  omega

theorem below_succ (i : Fin 4) : below (i.val + 1) = below i.val ∪ Finset.univ.image (blkRow i) := by
  ext m
  rw [Finset.mem_union, mem_below, mem_below, Finset.mem_image]
  constructor
  · intro h
    by_cases hm : m.val < 1024 * i.val
    · exact Or.inl hm
    · exact Or.inr ⟨⟨m.val - 1024 * i.val, by omega⟩, Finset.mem_univ _, Fin.ext (by
        show 1024 * i.val + (m.val - 1024 * i.val) = m.val; omega)⟩
  · rintro (h | ⟨r, _, rfl⟩)
    · omega
    · show 1024 * i.val + r.val < 1024 * (i.val + 1); omega

theorem coords2_val : ∀ t : Fin cfg2.N, (grid2.coords t 0).val = t.val / 16 ∧ (grid2.coords t 1).val = t.val / 4 % 4
    ∧ (grid2.coords t 2).val = t.val % 4 :=
  (by decide +kernel : ∀ t : Fin grid2.N, _)

theorem idx2_0 : ∀ t : Fin cfg2.N, win2_0.index t (0 : Fin 3) = t.val / 16 ∧ win2_0.index t (1 : Fin 3) = t.val / 4 % 4
    ∧ win2_0.index t (2 : Fin 3) = 0 :=
  (by decide +kernel : ∀ t : Fin grid2.N, _)

theorem idx2_1 : ∀ t : Fin cfg2.N, win2_1.index t (0 : Fin 3) = t.val / 16 ∧ win2_1.index t (1 : Fin 3) = t.val % 4
    ∧ win2_1.index t (2 : Fin 3) = 0 :=
  (by decide +kernel : ∀ t : Fin grid2.N, _)

-- an entry of an operand block at block index (B, I, 0) is the entry of row `1024·I + r` of batch `B`
theorem blk_idx (idx : Fin 3 → ℕ) (x : S1x1024x256.Idx) (B I : Fin 4) (j : S4x4096x256.Idx)
    (hj : ∀ a, (j a).val = idx a * S1x1024x256.size a + (x a).val) (e : idx 0 = B.val ∧ idx 1 = I.val ∧ idx 2 = 0) :
    j = ix3 B (blkRow I (x 1)) (x 2) := by
  obtain ⟨e0, e1, e2⟩ := e
  have h0 : (x 0).val < 1 := (x 0).isLt
  funext a
  apply Fin.ext
  match a with
  | ⟨0, _⟩ => rw [hj]; show idx 0 * 1 + (x 0).val = B.val; omega
  | ⟨1, _⟩ => rw [hj]; show idx 1 * 1024 + (x 1).val = 1024 * I.val + (x 1).val; omega
  | ⟨2, _⟩ => rw [hj]; show idx 2 * 256 + (x 2).val = (x 2).val; omega

def blkQ (Q : S4x4096x256.Idx → ℝ) (t : Fin cfg2.N) : S1x1024x256.Idx → ℝ :=
  fun x => Q (ix3 (ptB t) (blkRow (ptI t) (x 1)) (x 2))
def blkK (K : S4x4096x256.Idx → ℝ) (t : Fin cfg2.N) : S1x1024x256.Idx → ℝ :=
  fun x => K (ix3 (ptB t) (blkRow (ptJ t) (x 1)) (x 2))

variable (V : (c : Dev nD) → (b : Ref sig .tc) → Buf (Elt Ideal) ((c : Thread nD τ).loc b)) (c : Dev nD)
  (Q K : S4x4096x256.Idx → ℝ)

theorem hqAt (hQ : ∀ i, (V c main_v7 : S4x4096x256.Idx → EReal) i = ((Q i : ℝ) : EReal)) (t : Fin cfg2.N)
    (x : S1x1024x256.Idx) : (Hand.iblk2 V c 0 t : Vec Ideal S1x1024x256 .bf16) x = ((blkQ Q t x : ℝ) : EReal) := by
  unfold Hand.iblk2
  rw [View.read_apply]
  exact (congrArg (V c main_v7) (blk_idx _ x _ _ _ (win2_0.rect_emb_val t x) (idx2_0 t))).trans (hQ _)

theorem hkAt (hK : ∀ i, (V c main_v12 : S4x4096x256.Idx → EReal) i = ((K i : ℝ) : EReal)) (t : Fin cfg2.N)
    (x : S1x1024x256.Idx) : (Hand.iblk2 V c 1 t : Vec Ideal S1x1024x256 .bf16) x = ((blkK K t x : ℝ) : EReal) := by
  unfold Hand.iblk2
  rw [View.read_apply]
  exact (congrArg (V c main_v12) (blk_idx _ x _ _ _ (win2_1.rect_emb_val t x) (idx2_1 t))).trans (hK _)

end Cert.KernelIdeal.Val

end
-- ==== Proof.Val.Stats.lean ====
import proofs.«423235_j29944511988266_3_alg».proof.Proof.Val.StatsTile
import proofs.«423235_j29944511988266_3_alg».proof.Proof.Val.StatsBlk

noncomputable section

open Idealize.ShloMosaic Idealize.ShloMosaic.TcCoe Idealize.ShloMosaic.ValueIdx
open Idealize.ShloMosaic.Pipeline (Dat)
open scoped BigOperators

namespace Cert.KernelIdeal.Val

open Cert.KernelIdeal Cert.KernelIdeal.Gen

-- merging block `i` into a state over the blocks below it gives the state over the blocks below `i + 1`
theorem rep_blk {s : Fin 4096 → ℝ} {m l mt cc e m' l' : EReal} (i : Fin 4) (hR : Rep s (below i.val) m l)
    (f : Fin 1024 → ℝ) (hf : ∀ k, s (blkRow i k) = f k) (c : ℝ) (hc : ∀ k, f k ≤ c)
    (hmt : mt = ((Finset.univ.sup' ne1024 f : ℝ) : EReal)) (hcc : cc = (c : EReal))
    (he : e = ((∑ k, Real.exp (f k - c) : ℝ) : EReal)) (hm' : m' = max m mt)
    (hl' : l' = Ideal.exp (m - max m mt) * l + e * Ideal.exp (cc - max m mt)) :
    Rep s (below (i.val + 1)) m' l' := by
  obtain rfl : (fun k => s (blkRow i k)) = f := funext hf
  subst hm'
  rw [below_succ]
  exact rep_step_tile hR (blkRow i) (fun _ _ h => blkRow_inj h) ne1024 (blkRow_not_mem_below i) c hc hmt hcc he rfl hl'

def Post (s : Fin 4096 → ℝ) (v : EReal) : Prop := ∃ m l : EReal, Rep s Finset.univ m l ∧ v = m + Ideal.log l

-- the merged pair at one entry, for a row vector and for a column vector alike
theorem upd {a b : ℕ} (h : (⟨2, ![a, b]⟩ : Shape).ShapeCasts ⟨2, ![a, b]⟩) (hb : (⟨2, ![1, 1]⟩ : Shape).Broadcasts ⟨2, ![a, b]⟩)
    (m0 l0 mt e : FVec Ideal ⟨2, ![a, b]⟩ .f32) (cv : FVec Ideal ⟨2, ![1, 1]⟩ .f32) (x : (⟨2, ![a, b]⟩ : Shape).Idx) :
    shapeCast _ (maximumf m0 mt) h x = max (m0 x) (mt x)
      ∧ shapeCast _ (addf (mulf (exp (subf m0 (maximumf m0 mt))) l0) (mulf e (exp (subf (broadcastTo _ cv hb) (maximumf m0 mt))))) h x
        = Ideal.exp (m0 x - max (m0 x) (mt x)) * l0 x + e x * Ideal.exp (cv (ix2 (0 : Fin 1) (0 : Fin 1)) - max (m0 x) (mt x)) := by
  rw [shapeCast_self, shapeCast_self, ← bcast11 cv hb x]
  exact ⟨rfl, rfl⟩

theorem zero3 : (![0, 0, 0] : Fin 3 → Nat) = fun _ => 0 := funext fun a => by fin_cases a <;> rfl

def score (Q K : S4x4096x256.Idx → ℝ) (b : Fin 4) (mm n : Fin 4096) : ℝ := ∑ d : Fin 256, Q (ix3 b mm d) * K (ix3 b n d)

-- a row's running pair at one entry: begun at (-∞, 0) where a row block starts, then merged with the tile's row
theorem step2_row (i : grid2.Coords) (q k : Vec Ideal S1x1024x256 .bf16) (s : Hand.Scr2 Ideal) (x : S1024x1.Idx) :
    ∃ m0 l0 : EReal, ((i 2).val = 0 → m0 = ⊥ ∧ l0 = 0) ∧ ((i 2).val ≠ 0 → m0 = s.rm x ∧ l0 = s.rl x)
      ∧ (Hand.step2 i q k s).rm x = max m0 (k2_pay7 q k x)
      ∧ (Hand.step2 i q k s).rl x = Ideal.exp (m0 - max m0 (k2_pay7 q k x)) * l0
          + k2_pay11 q k x * Ideal.exp (k2_pay9 q k (ix2 (0 : Fin 1) (0 : Fin 1)) - max m0 (k2_pay7 q k x)) := by
  refine ⟨(if (i 2).val = 0 then k2_pay2 (F := Ideal) else s.rm) x, (if (i 2).val = 0 then k2_pay3 (F := Ideal) else s.rl) x,
    fun h => ?_, fun h => ?_, upd _ _ _ _ (k2_pay7 q k) (k2_pay11 q k) (k2_pay9 q k) x⟩
  · rw [if_pos h, if_pos h]
    unfold k2_pay2 k2_pay3
    rw [shapeCast_self, shapeCast_self]
    exact ⟨ofBits_neg_inf_f32, ofBits_zero_f32⟩
  · rw [if_neg h, if_neg h]
    exact ⟨rfl, rfl⟩

section Sweep
variable (V : (c : Dev nD) → (b : Ref sig .tc) → Buf (Elt Ideal) ((c : Thread nD τ).loc b)) (c : Dev nD)
variable (Q K : S4x4096x256.Idx → ℝ)
variable (hQ : ∀ i, (V c main_v7 : S4x4096x256.Idx → EReal) i = ((Q i : ℝ) : EReal))
  (hK : ∀ i, (V c main_v12 : S4x4096x256.Idx → EReal) i = ((K i : ℝ) : EReal))

include hQ hK in
theorem row_step (t : Fin cfg2.N) (sc : Hand.Scr2 Ideal) (r : Fin 1024)
    (hR : (ptJ t).val ≠ 0 → Rep (score Q K (ptB t) (blkRow (ptI t) r)) (below (ptJ t).val)
      (sc.rm (ix2 r (0 : Fin 1))) (sc.rl (ix2 r (0 : Fin 1)))) :
    Rep (score Q K (ptB t) (blkRow (ptI t) r)) (below ((ptJ t).val + 1))
      ((Hand.step2 (grid2.coords t) (Hand.iblk2 V c 0 t) (Hand.iblk2 V c 1 t) sc).rm (ix2 r (0 : Fin 1)))
      ((Hand.step2 (grid2.coords t) (Hand.iblk2 V c 0 t) (Hand.iblk2 V c 1 t) sc).rl (ix2 r (0 : Fin 1))) := by
  have hq := hqAt V c Q hQ t
  have hk := hkAt V c K hK t
  have hj : (grid2.coords t 2).val = (ptJ t).val := (coords2_val t).2.2
  obtain ⟨m0, l0, h0, h1, hm, hl⟩ :=
    step2_row (grid2.coords t) (Hand.iblk2 V c 0 t) (Hand.iblk2 V c 1 t) sc (ix2 r (0 : Fin 1))
  refine rep_blk (ptJ t) ?_ (tileS (blkQ Q t) (blkK K t) r) (fun _ => rfl) _ (tileS_le_tileC _ _ r)
    (pay7_apply hq hk r) (pay9_apply hq hk) (pay11_apply hq hk r) hm hl
  by_cases h : (grid2.coords t 2).val = 0
  · obtain ⟨rfl, rfl⟩ := h0 h
    rw [← hj, h, below_zero]
    exact rep_empty _
  · obtain ⟨rfl, rfl⟩ := h1 h
    exact hR fun e => h (hj.trans e)

include hQ hK in
theorem row_inv : ∀ (n : ℕ) (hn : n < cfg2.N) (r : Fin 1024),
    Rep (score Q K (ptB ⟨n, hn⟩) (blkRow (ptI ⟨n, hn⟩) r)) (below ((ptJ ⟨n, hn⟩).val + 1))
      ((Hand.scrAt2 V c n hn).rm (ix2 r (0 : Fin 1))) ((Hand.scrAt2 V c n hn).rl (ix2 r (0 : Fin 1)))
  | 0, hn, r => by
    rw [Hand.scrAt2_zero]
    exact row_step V c Q K hQ hK ⟨0, hn⟩ Hand.junk2 r (fun h => absurd rfl h)
  | n + 1, hn, r => by
    rw [Hand.scrAt2_succ]
    refine row_step V c Q K hQ hK ⟨n + 1, hn⟩ _ r (fun h => ?_)
    have h' : (n + 1) % 4 ≠ 0 := h
    rw [show ptB ⟨n + 1, hn⟩ = ptB ⟨n, Nat.lt_of_succ_lt hn⟩ from Fin.ext (show (n + 1) / 16 = n / 16 by omega),
      show ptI ⟨n + 1, hn⟩ = ptI ⟨n, Nat.lt_of_succ_lt hn⟩ from Fin.ext (show (n + 1) / 4 % 4 = n / 4 % 4 by omega),
      show (ptJ ⟨n + 1, hn⟩).val = (ptJ ⟨n, Nat.lt_of_succ_lt hn⟩).val + 1 from (show (n + 1) % 4 = n % 4 + 1 by omega)]
    exact row_inv n (Nat.lt_of_succ_lt hn) r

theorem idx2_2 : ∀ t : Fin cfg2.N, win2_2.index t (0 : Fin 3) = t.val / 16 ∧ win2_2.index t (1 : Fin 3) = t.val / 4 % 4
    ∧ win2_2.index t (2 : Fin 3) = 0 :=
  (by decide +kernel : ∀ t : Fin grid2.N, _)

theorem emb2_2 (t : Fin cfg2.N) (u : Fin 1) (r : Fin 1024) (w : Fin 1) (B : Fin 4) (M : Fin 4096) (hB : B.val = t.val / 16)
    (hM : M.val = 1024 * (t.val / 4 % 4) + r.val) :
    (((cfg2.win 2).blk t).view.emb (ix3 u r w) : S4x4096x1.Idx) = ix3 B M (0 : Fin 1) := by
  obtain ⟨e0, e1, e2⟩ := idx2_2 t
  funext a
  apply Fin.ext
  match a with
  | ⟨0, _⟩ => show win2_2.index t (0 : Fin 3) * 1 + 1 * u.val = B.val; rw [e0, hB]; omega
  | ⟨1, _⟩ => show win2_2.index t (1 : Fin 3) * 1024 + 1 * r.val = M.val; rw [e1, hM]; omega
  | ⟨2, _⟩ => show win2_2.index t (2 : Fin 3) * 1 + 1 * w.val = 0; rw [e2]; omega

theorem pay21_apply (rm rl : FVec Ideal S1024x1 .f32) (u : Fin 1) (r : Fin 1024) (w : Fin 1) :
    k2_pay21 rm rl (ix3 u r w) = rm (ix2 r (0 : Fin 1)) + Ideal.log (rl (ix2 r (0 : Fin 1))) :=
  shapeCast_apply (addf rm (log rl)) shapeCasts_S1024x1_S1x1024x1 (ix3 u r w) (ix2 r (0 : Fin 1)) (by
    rw [Shape.rowMajor_val_two, Shape.rowMajor_val_three]
    show r.val * 1 + 0 = (u.val * 1024 + r.val) * 1 + w.val
    omega)

include hQ hK in
theorem flushed2_2_post (t : Fin cfg2.N) (hf : (cfg2.win 2).flush t = true) (y : S1x1024x1.Idx) :
    Post (score Q K ((((cfg2.win 2).blk t).view.emb y : S4x4096x1.Idx) 0) ((((cfg2.win 2).blk t).view.emb y : S4x4096x1.Idx) 1))
      (((Hand.dat2 V c).flushed 2 t : S1x1024x1.Idx → EReal) y) := by
  obtain ⟨u, r, w, rfl⟩ : ∃ u r w, y = ix3 u r w := ⟨_, _, _, eq_ix3 y⟩
  rw [emb2_2 t u r w (ptB t) (blkRow (ptI t) r) rfl rfl]
  have h := row_inv V c Q K hQ hK t.val t.isLt r
  rw [show (ptJ t).val + 1 = 4 by have := (flush2_2 t).mp hf; rw [ptJ_val]; omega, below_four] at h
  refine ⟨_, _, h, ?_⟩
  show (cfg2.win 2).cut (grid2.coords t) ((Hand.dat2 V c).after 2 t) (ix3 u r w) = _
  rw [Hand.after2_2]
  unfold Hand.rowOut2
  rw [View.canon_unit_zero (S := S1x1024x1) zero3]
  exact pay21_apply _ _ u r w

end Sweep

theorem lse_row_apply (V : (c : Dev nD) → (b : Ref sig .tc) → Buf (Elt Ideal) ((c : Thread nD τ).loc b)) (c : Dev nD)
    (q k : S4x4096x256.Idx → ℝ)
    (hq : ∀ i, (V c main_v7 : S4x4096x256.Idx → EReal) i = ((q i : ℝ) : EReal))
    (hk : ∀ i, (V c main_v12 : S4x4096x256.Idx → EReal) i = ((k i : ℝ) : EReal)) (b : Fin 4) (mm : Fin 4096) :
    ∃ m l : EReal, Rep (fun n : Fin 4096 => ∑ d : Fin 256, q (ix3 b mm d) * k (ix3 b n d)) Finset.univ m l
      ∧ ((Hand.dat2 (F := Ideal) V c).arrAt 2 cfg2.N : S4x4096x1.Idx → EReal) (ix3 b mm (0 : Fin 1)) = m + Ideal.log l := by
  have hN : cfg2.N = 64 := N2_eq
  obtain ⟨t, ht⟩ : ∃ t : Fin cfg2.N, t.val = 16 * b.val + 4 * (mm.val / 1024) + 3 := ⟨⟨_, by omega⟩, rfl⟩
  have hi : (ix3 b mm (0 : Fin 1) : S4x4096x1.Idx) ∈ ((cfg2.win 2).blk t).view.set := by
    rw [← emb2_2 t 0 ⟨mm.val % 1024, by omega⟩ 0 b mm (by omega)
      (by show mm.val = 1024 * (t.val / 4 % 4) + mm.val % 1024; omega)]
    exact View.emb_mem_set _ _
  exact (Hand.dat2 V c).arrAt_forall_of_flushed 2 (fun (i : S4x4096x1.Idx) (v : EReal) => Post (score q k (i 0) (i 1)) v)
    (flushed2_2_post V c q k hq hk) cfg2.N t (ix3 b mm (0 : Fin 1)) t.isLt ((flush2_2 t).mpr (by omega)) hi

end Cert.KernelIdeal.Val

end
-- ==== Proof.Val.StatsCol.lean ====
import proofs.«423235_j29944511988266_3_alg».proof.Proof.Val.Stats

noncomputable section

open scoped BigOperators

namespace Cert.KernelIdeal.Val

open Cert.KernelIdeal Cert.KernelIdeal.Gen
open Idealize.ShloMosaic Idealize.ShloMosaic.TcCoe Idealize.ShloMosaic.ValueIdx
open Idealize.ShloMosaic.Pipeline (Dat)

theorem off1_val : ∀ i : grid2.Coords, k2_off1 i 0 = 0 ∧ k2_off1 i 1 = 1024 * (i 2).val := by decide +kernel

theorem colRect2_emb (i : grid2.Coords) (cc : Fin 1024) (col : Fin 4096) (hcol : col.val = 1024 * (i 2).val + cc.val) :
    (Hand.colRect2 i).emb (ix2 (0 : Fin 1) cc) = (ix2 (0 : Fin 1) col : S1x4096.Idx) := by
  obtain ⟨e0, e1⟩ := off1_val i
  funext a
  apply Fin.ext
  match a with
  | ⟨0, _⟩ => show k2_off1 i 0 + 1 * 0 = 0; rw [e0]
  | ⟨1, _⟩ => show k2_off1 i 1 + 1 * cc.val = col.val; rw [e1, hcol]; omega

theorem of_mem_colRect2 (i : grid2.Coords) (col : Fin 4096)
    (h : (ix2 (0 : Fin 1) col : S1x4096.Idx) ∈ (Hand.colRect2 i).set) : col.val / 1024 = (i 2).val := by
  have h0 := Rect.mem_set_unit.1 h ⟨1, by decide⟩
  have h1 : k2_off1 i 1 ≤ col.val ∧ col.val < k2_off1 i 1 + 1024 := h0
  rw [(off1_val i).2] at h1
  omega

-- a column's pair at one entry: begun at (-∞, 0) where a batch starts, kept outside the point's column block, merged inside it
theorem step2_col (i : grid2.Coords) (q k : Vec Ideal S1x1024x256 .bf16) (s : Hand.Scr2 Ideal) (col : Fin 4096) :
    ∃ m0 l0 : EReal, ((i 1).val = 0 ∧ (i 2).val = 0 → m0 = ⊥ ∧ l0 = 0)
      ∧ (¬((i 1).val = 0 ∧ (i 2).val = 0) → m0 = s.cm (ix2 (0 : Fin 1) col) ∧ l0 = s.cl (ix2 (0 : Fin 1) col))
      ∧ (col.val / 1024 ≠ (i 2).val →
          (Hand.step2 i q k s).cm (ix2 (0 : Fin 1) col) = m0 ∧ (Hand.step2 i q k s).cl (ix2 (0 : Fin 1) col) = l0)
      ∧ ∀ cc : Fin 1024, col.val = 1024 * (i 2).val + cc.val →
          (Hand.step2 i q k s).cm (ix2 (0 : Fin 1) col) = max m0 (k2_pay8 q k (ix2 (0 : Fin 1) cc))
          ∧ (Hand.step2 i q k s).cl (ix2 (0 : Fin 1) col)
              = Ideal.exp (m0 - max m0 (k2_pay8 q k (ix2 (0 : Fin 1) cc))) * l0 + k2_pay12 q k (ix2 (0 : Fin 1) cc)
                * Ideal.exp (k2_pay9 q k (ix2 (0 : Fin 1) (0 : Fin 1)) - max m0 (k2_pay8 q k (ix2 (0 : Fin 1) cc))) := by
  unfold Hand.step2
  dsimp only
  refine ⟨(if (i 1).val = 0 ∧ (i 2).val = 0 then k2_pay4 (F := Ideal) else s.cm) (ix2 (0 : Fin 1) col),
    (if (i 1).val = 0 ∧ (i 2).val = 0 then k2_pay5 (F := Ideal) else s.cl) (ix2 (0 : Fin 1) col),
    fun h => ?_, fun h => ?_, fun h => ?_, fun cc h => ?_⟩
  · rw [if_pos h, if_pos h]
    unfold k2_pay4 k2_pay5
    rw [shapeCast_self, shapeCast_self]
    exact ⟨ofBits_neg_inf_f32, ofBits_zero_f32⟩
  · rw [if_neg h, if_neg h]
    exact ⟨rfl, rfl⟩
  · exact ⟨Rect.overlay_of_not_mem _ _ _ fun hm => h (of_mem_colRect2 i col hm),
      Rect.overlay_of_not_mem _ _ _ fun hm => h (of_mem_colRect2 i col hm)⟩
  · rw [← colRect2_emb i cc col h, Rect.overlay_emb, Rect.overlay_emb]
    exact upd _ _ _ _ (k2_pay8 q k) (k2_pay12 q k) (k2_pay9 q k) (ix2 (0 : Fin 1) cc)

def cnt (n : ℕ) (col : Fin 4096) : ℕ := (n % 16 + 4 - col.val / 1024) / 4

theorem idx2_3 : ∀ t : Fin cfg2.N, win2_3.index t (0 : Fin 3) = t.val / 16 ∧ win2_3.index t (1 : Fin 3) = 0
    ∧ win2_3.index t (2 : Fin 3) = 0 :=
  (by decide +kernel : ∀ t : Fin grid2.N, _)

theorem emb2_3 (t : Fin cfg2.N) (u v : Fin 1) (col : Fin 4096) (B : Fin 4) (hB : B.val = t.val / 16) :
    ((cfg2.win 3).blk t).view.emb (ix3 u v col) = (ix3 B (0 : Fin 1) col : S4x1x4096.Idx) := by
  obtain ⟨e0, e1, e2⟩ := idx2_3 t
  funext a
  apply Fin.ext
  match a with
  | ⟨0, _⟩ => show win2_3.index t (0 : Fin 3) * 1 + 1 * u.val = B.val; rw [e0, hB]; omega
  | ⟨1, _⟩ => show win2_3.index t (1 : Fin 3) * 1 + 1 * v.val = 0; rw [e1]; omega
  | ⟨2, _⟩ => show win2_3.index t (2 : Fin 3) * 4096 + 1 * col.val = col.val; rw [e2]; omega

theorem pay1_apply (cm cl : Vec Ideal S1x4096 .f32) (u v : Fin 1) (col : Fin 4096) :
    k2_pay1 cm cl (ix3 u v col) = cm (ix2 (0 : Fin 1) col) + Ideal.log (cl (ix2 (0 : Fin 1) col)) := by
  obtain rfl : v = 0 := Subsingleton.elim _ _
  unfold k2_pay1
  rw [shapeCast_ab_1ab_apply]
  rfl

section Sweep
variable (V : (c : Dev nD) → (b : Ref sig .tc) → Buf (Elt Ideal) ((c : Thread nD τ).loc b)) (c : Dev nD)
  (q k : S4x4096x256.Idx → ℝ)
  (hq : ∀ i, (V c main_v7 : S4x4096x256.Idx → EReal) i = ((q i : ℝ) : EReal))
  (hk : ∀ i, (V c main_v12 : S4x4096x256.Idx → EReal) i = ((k i : ℝ) : EReal))

include hq hk in
theorem col_step (t : Fin cfg2.N) (sc : Hand.Scr2 Ideal)
    (hprev : t.val % 16 ≠ 0 → ∀ col : Fin 4096, Rep (fun r => score q k (ptB t) r col) (below (cnt (t.val - 1) col))
      (sc.cm (ix2 (0 : Fin 1) col)) (sc.cl (ix2 (0 : Fin 1) col))) (col : Fin 4096) :
    Rep (fun r => score q k (ptB t) r col) (below (cnt t.val col))
      ((Hand.step2 (grid2.coords t) (Hand.iblk2 V c 0 t) (Hand.iblk2 V c 1 t) sc).cm (ix2 (0 : Fin 1) col))
      ((Hand.step2 (grid2.coords t) (Hand.iblk2 V c 0 t) (Hand.iblk2 V c 1 t) sc).cl (ix2 (0 : Fin 1) col)) := by
  obtain ⟨e0, e1, e2⟩ := coords2_val t
  have hN : t.val < 64 := lt_of_lt_of_eq t.isLt N2_eq
  obtain ⟨m0, l0, h0, h1, hout, hin⟩ :=
    step2_col (grid2.coords t) (Hand.iblk2 V c 0 t) (Hand.iblk2 V c 1 t) sc col
  rw [e1, e2] at h0 h1
  rw [e2] at hout hin
  have hstart : Rep (fun r => score q k (ptB t) r col) (below (if t.val % 16 = 0 then 0 else cnt (t.val - 1) col)) m0 l0 := by
    by_cases h : t.val % 16 = 0
    · obtain ⟨rfl, rfl⟩ := h0 (by omega)
      rw [if_pos h, below_zero]
      exact rep_empty _
    · obtain ⟨rfl, rfl⟩ := h1 (by omega)
      rw [if_neg h]
      exact hprev h col
  by_cases hj : col.val / 1024 = t.val % 4
  · obtain ⟨cc, hcc⟩ : ∃ cc : Fin 1024, cc.val = col.val % 1024 := ⟨⟨_, Nat.mod_lt _ (by norm_num)⟩, rfl⟩
    obtain ⟨hm, hl⟩ := hin cc (by omega)
    have hc : col = blkRow (ptJ t) cc := Fin.ext (by show col.val = 1024 * (t.val % 4) + cc.val; omega)
    rw [show (if t.val % 16 = 0 then 0 else cnt (t.val - 1) col) = (ptI t).val by
      unfold cnt; rw [ptI_val]; split <;> omega] at hstart
    rw [show cnt t.val col = (ptI t).val + 1 by unfold cnt; rw [ptI_val]; omega]
    exact rep_blk (ptI t) hstart (fun r => tileS (blkQ q t) (blkK k t) r cc)
      (fun r => congrArg (score q k (ptB t) (blkRow (ptI t) r)) hc) _ (fun r => tileS_le_tileC _ _ r cc)
      (pay8_apply (hqAt V c q hq t) (hkAt V c k hk t) cc) (pay9_apply (hqAt V c q hq t) (hkAt V c k hk t))
      (pay12_apply (hqAt V c q hq t) (hkAt V c k hk t) cc) hm hl
  · obtain ⟨hm, hl⟩ := hout hj
    rw [hm, hl, show cnt t.val col = (if t.val % 16 = 0 then 0 else cnt (t.val - 1) col) by unfold cnt; split <;> omega]
    exact hstart

include hq hk in
theorem col_inv (n : ℕ) (hn : n < cfg2.N) (col : Fin 4096) :
    Rep (fun r => score q k (ptB ⟨n, hn⟩) r col) (below (cnt n col))
      ((Hand.scrAt2 V c n hn).cm (ix2 (0 : Fin 1) col)) ((Hand.scrAt2 V c n hn).cl (ix2 (0 : Fin 1) col)) := by
  induction n generalizing col with
  | zero => exact col_step V c q k hq hk ⟨0, hn⟩ Hand.junk2 (fun h => absurd rfl h) col
  | succ n ih =>
    rw [Hand.scrAt2_succ]
    refine col_step V c q k hq hk ⟨n + 1, hn⟩ _ (fun h col' => ?_) col
    have h' : (n + 1) % 16 ≠ 0 := h
    rw [show ptB ⟨n + 1, hn⟩ = ptB ⟨n, Nat.lt_of_succ_lt hn⟩ from Fin.ext (show (n + 1) / 16 = n / 16 by omega)]
    exact ih (Nat.lt_of_succ_lt hn) col'

include hq hk in
theorem flushed2_3_post (t : Fin cfg2.N) (hf : (cfg2.win 3).flush t = true) (y : S1x1x4096.Idx) :
    Post (fun r => score q k ((((cfg2.win 3).blk t).view.emb y : S4x1x4096.Idx) 0) r ((((cfg2.win 3).blk t).view.emb y : S4x1x4096.Idx) 2))
      (((Hand.dat2 V c).flushed 3 t : S1x1x4096.Idx → EReal) y) := by
  obtain ⟨u, v, col, rfl⟩ : ∃ u v col, y = ix3 u v col := ⟨_, _, _, eq_ix3 y⟩
  rw [emb2_3 t u v col (ptB t) rfl]
  have h := col_inv V c q k hq hk t.val t.isLt col
  rw [show cnt t.val col = 4 by have := (flush2_3 t).1 hf; unfold cnt; omega, below_four] at h
  refine ⟨_, _, h, ?_⟩
  show (cfg2.win 3).cut (grid2.coords t) ((Hand.dat2 V c).after 3 t) (ix3 u v col) = _
  rw [Hand.after2_3]
  unfold Hand.colOut2
  rw [View.canon_unit_zero zero3]
  exact pay1_apply _ _ u v col

include hq hk in
theorem lse_col_apply (b : Fin 4) (nn : Fin 4096) :
    ∃ m l : EReal, Rep (fun r : Fin 4096 => ∑ d : Fin 256, q (ix3 b r d) * k (ix3 b nn d)) Finset.univ m l
      ∧ ((Hand.dat2 (F := Ideal) V c).arrAt 3 cfg2.N : S4x1x4096.Idx → EReal) (ix3 b 0 nn) = m + Ideal.log l := by
  have hN : cfg2.N = 64 := N2_eq
  obtain ⟨t, ht⟩ : ∃ t : Fin cfg2.N, t.val = 16 * b.val + 15 := ⟨⟨_, by omega⟩, rfl⟩
  have hi : (ix3 b (0 : Fin 1) nn : S4x1x4096.Idx) ∈ ((cfg2.win 3).blk t).view.set := by
    rw [← emb2_3 t 0 0 nn b (by omega)]
    exact View.emb_mem_set _ _
  exact (Hand.dat2 (F := Ideal) V c).arrAt_forall_of_flushed 3 (fun (i : S4x1x4096.Idx) (v : EReal) => Post (fun r => score q k (i 0) r (i 2)) v)
    (flushed2_3_post V c q k hq hk) cfg2.N t (ix3 b (0 : Fin 1) nn) t.isLt ((flush2_3 t).2 (by omega)) hi

end Sweep

end Cert.KernelIdeal.Val

end
-- ==== Proof.Val.RefReal.lean ====
import proofs.«423235_j29944511988266_3_alg».proof.Proof.Val.Ref
import proofs.«423235_j29944511988266_3_alg».proof.Proof.Val.Lse
import proofs.«423235_j29944511988266_3_alg».proof.Proof.Val.Reduce

noncomputable section

namespace Cert.ReferenceIdeal.RefValue

open Cert.ReferenceIdeal Idealize.ShloMosaic Idealize.ShloMosaic.ValueIdx Cert.KernelIdeal.Val
open scoped BigOperators

def linR {E : Nat} (D : S4x4096x256.Idx → ℝ) (W : (⟨2, ![E, 256]⟩ : Shape).Idx → ℝ) (B : (⟨1, ![E]⟩ : Shape).Idx → ℝ)
    (b : Fin 4) (m : Fin 4096) (e : Fin E) : ℝ :=
  (∑ d : Fin 256, D (ix3 b m d) * W (ix2 e d)) + B (ix1 e)

def mdR (D : S4x4096x256.Idx → ℝ) (W : S256x256.Idx → ℝ) (B : S256.Idx → ℝ) (b : Fin 4) (m : Fin 4096) (e : Fin 256) : ℝ :=
  linR D W B b m e * (1 / 4)

def simR (A0 A1 : S4x4096x256.Idx → ℝ) (A2 : S256x256.Idx → ℝ) (A3 : S256.Idx → ℝ) (b : Fin 4) (m n : Fin 4096) : ℝ :=
  ∑ d : Fin 256, mdR A0 A2 A3 b m d * mdR A1 A2 A3 b n d

theorem lin_coe {E : Nat} {a : FVec Ideal S4x4096x256 .f32} {w : FVec Ideal ⟨2, ![E, 256]⟩ .f32} {β : FVec Ideal ⟨1, ![E]⟩ .f32}
    {A : S4x4096x256.Idx → ℝ} {W : (⟨2, ![E, 256]⟩ : Shape).Idx → ℝ} {B : (⟨1, ![E]⟩ : Shape).Idx → ℝ}
    (ha : ∀ i, a i = (A i : EReal)) (hw : ∀ i, w i = (W i : EReal)) (hβ : ∀ i, β i = (B i : EReal))
    (b : Fin 4) (m : Fin 4096) (e : Fin E) :
    lin a w β b m e = ((linR A W B b m e : ℝ) : EReal) := by
  have e1 : (∑ d : Fin 256, a (ix3 b m d) * w (ix2 e d))
      = ((∑ d : Fin 256, A (ix3 b m d) * W (ix2 e d) : ℝ) : EReal) := by
    rw [← sum_coe_mul_coe]
    exact Finset.sum_congr rfl fun d _ => by rw [ha, hw]
  unfold lin linR
  rw [e1, hβ, EReal.coe_add]

section Real

variable {a0 a1 : FVec Ideal S4x4096x256 .f32} {a2 : FVec Ideal S256x256 .f32} {a3 : FVec Ideal S256 .f32}
  {A0 A1 : S4x4096x256.Idx → ℝ} {A2 : S256x256.Idx → ℝ} {A3 : S256.Idx → ℝ}

theorem mdesc_coe {a : FVec Ideal S4x4096x256 .f32} {A : S4x4096x256.Idx → ℝ}
    (ha : ∀ i, a i = (A i : EReal)) (h2 : ∀ i, a2 i = (A2 i : EReal)) (h3 : ∀ i, a3 i = (A3 i : EReal))
    (b : Fin 4) (m : Fin 4096) (e : Fin 256) :
    mdesc a a2 a3 b m e = ((mdR A A2 A3 b m e : ℝ) : EReal) := by
  unfold mdesc mdR
  rw [lin_coe ha h2 h3, ofBits_four_f32, div_four, ← EReal.coe_mul]

theorem lin_mul_quarter_coe {a : FVec Ideal S4x4096x256 .f32} {A : S4x4096x256.Idx → ℝ}
    (ha : ∀ i, a i = (A i : EReal)) (h2 : ∀ i, a2 i = (A2 i : EReal)) (h3 : ∀ i, a3 i = (A3 i : EReal))
    (b : Fin 4) (m : Fin 4096) (e : Fin 256) :
    ((∑ d : Fin 256, a (ix3 b m d) * a2 (ix2 e d)) + a3 (ix1 e)) * Ideal.ofBits .f32 0x3E800000#32
      = ((mdR A A2 A3 b m e : ℝ) : EReal) := by
  have e1 := lin_coe ha h2 h3 b m e
  unfold lin at e1
  unfold mdR
  rw [e1, ofBits_quarter_f32, ← EReal.coe_mul]

theorem sum_mul_eq_simR (q k : S4x4096x256.Idx → EReal) (b : Fin 4) (m n : Fin 4096)
    (hq : ∀ d : Fin 256, q (ix3 b m d) = ((mdR A0 A2 A3 b m d : ℝ) : EReal))
    (hk : ∀ d : Fin 256, k (ix3 b n d) = ((mdR A1 A2 A3 b n d : ℝ) : EReal)) :
    (∑ d : Fin 256, q (ix3 b m d) * k (ix3 b n d)) = ((simR A0 A1 A2 A3 b m n : ℝ) : EReal) :=
  (Finset.sum_congr rfl fun d _ => by rw [hq d, hk d]).trans (sum_coe_mul_coe _ _ _)

variable (h0 : ∀ i, a0 i = (A0 i : EReal)) (h1 : ∀ i, a1 i = (A1 i : EReal)) (h2 : ∀ i, a2 i = (A2 i : EReal))
  (h3 : ∀ i, a3 i = (A3 i : EReal))

include h0 h1 h2 h3

theorem sim_coe (b : Fin 4) (m n : Fin 4096) :
    sim a0 a1 a2 a3 b m n = ((simR A0 A1 A2 A3 b m n : ℝ) : EReal) := by
  unfold sim
  exact (Finset.sum_congr rfl fun d _ => by rw [mdesc_coe h0 h2 h3, mdesc_coe h1 h2 h3]).trans (sum_coe_mul_coe _ _ _)

omit h0 h1 h2 h3

theorem softmax_fold_of_rep {ι : Type*} [Fintype ι] (g : ι → EReal) (s : ι → ℝ) (hg : ∀ k, g k = (s k : EReal))
    (mm ll : EReal) (hR : Rep s Finset.univ mm ll) (n : ι) :
    Ideal.div (Ideal.exp (g n - Finset.univ.fold max ⊥ g)) (∑ n', Ideal.exp (g n' - Finset.univ.fold max ⊥ g))
      = Ideal.exp ((s n : EReal) - (mm + Ideal.log ll)) := by
  have hA : (Finset.univ : Finset ι).Nonempty := ⟨n, Finset.mem_univ n⟩
  rw [fold_max_bot_of_coe Finset.univ hA g s fun k _ => hg k, softmax_of_rep hR hA n, hg n, coe_finset_sum]
  refine congrArg (Ideal.div _) (Finset.sum_congr rfl fun k _ => ?_)
  rw [hg k, exp_coe_sub_coe]

include h0 h1 h2 h3

theorem p01_of_rep (b : Fin 4) (m : Fin 4096) (mm ll : EReal)
    (hR : Rep (fun n : Fin 4096 => simR A0 A1 A2 A3 b m n) Finset.univ mm ll) (n : Fin 4096) :
    p01 a0 a1 a2 a3 b m n = Ideal.exp (((simR A0 A1 A2 A3 b m n : ℝ) : EReal) - (mm + Ideal.log ll)) := by
  unfold p01 rowmax
  exact softmax_fold_of_rep (fun n => sim a0 a1 a2 a3 b m n) (fun n => simR A0 A1 A2 A3 b m n)
    (fun k => sim_coe h0 h1 h2 h3 b m k) mm ll hR n

theorem p10_of_rep (b : Fin 4) (n : Fin 4096) (mm ll : EReal)
    (hR : Rep (fun m' : Fin 4096 => simR A0 A1 A2 A3 b m' n) Finset.univ mm ll) (m : Fin 4096) :
    p10 a0 a1 a2 a3 b m n = Ideal.exp (((simR A0 A1 A2 A3 b m n : ℝ) : EReal) - (mm + Ideal.log ll)) := by
  unfold p10 colmax
  exact softmax_fold_of_rep (fun m' => sim a0 a1 a2 a3 b m' n) (fun m' => simR A0 A1 A2 A3 b m' n)
    (fun k => sim_coe h0 h1 h2 h3 b k n) mm ll hR m

end Real

end Cert.ReferenceIdeal.RefValue

end
-- ==== Proof.Val.Finite.lean ====
import proofs.«423235_j29944511988266_3_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.FiniteInputs

open Idealize.ShloMosaic Idealize.ShloMosaic.ValueIdx Cert.Pre_finite_inputs

instance : Subsingleton S_.Idx := ⟨fun a b => funext fun d => d.elim0⟩

theorem ofBits_inf : Ideal.ofBits .f32 0x7F800000#32 = (⊤ : EReal) := by
  simp [Ideal.ofBits, Ideal.ieee]

theorem real_of_abs_lt_top (x : EReal) (h : max x (-x) < ⊤) : ∃ r : ℝ, x = (r : EReal) := by
  induction x using EReal.rec with
  | bot => exact absurd h (by simp)
  | top => exact absurd h (by simp)
  | coe r => exact ⟨r, rfl⟩

theorem real_of_cmp {s : Shape} (bc : S_.BroadcastsInDim s (![] : Fin 0 → Fin s.rank)) (a : FVec Ideal s .f32) (i : s.Idx)
    (h : cmpf .olt (Host.absf a) (broadcastInDim s ![] bc (constant (F := Ideal) S_ .f32 0x7F800000#32)) i = 1#1) :
    ∃ r : ℝ, a i = (r : EReal) := by
  have h1 : Ideal.cmp .olt (max (a i) (-(a i))) (Ideal.ofBits .f32 0x7F800000#32) = 1#1 := h
  rw [ofBits_inf] at h1
  refine real_of_abs_lt_top (a i) ?_
  by_contra hn
  simp [Ideal.cmp, hn] at h1

variable [Facts]

theorem finite_of_pre (a0 a1 : FVec Ideal S4x4096x256 .f32) (a2 : FVec Ideal S256x256 .f32) (a3 : FVec Ideal S256 .f32)
    (a4 : FVec Ideal S2x256 .f32) (a5 : FVec Ideal S2 .f32)
    (h : Cert.Pre_finite_inputs.fn (F := Ideal) a0 a1 a2 a3 a4 a5 = (fun _ => 1#1)) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal)) := by
  have h0 := congrFun h ix0
  dsimp only [fn, fn_part1] at h0

  obtain ⟨h0, c5⟩ := IntOp.andi_eq_one.1 h0
  obtain ⟨h0, c4⟩ := IntOp.andi_eq_one.1 h0
  obtain ⟨h0, c3⟩ := IntOp.andi_eq_one.1 h0
  obtain ⟨h0, c2⟩ := IntOp.andi_eq_one.1 h0
  obtain ⟨c0, c1⟩ := IntOp.andi_eq_one.1 h0
  exact ⟨fun i => real_of_cmp _ a0 i (Host.reduce_andi_all _ _ _ _ _ c0 i),
    fun i => real_of_cmp _ a1 i (Host.reduce_andi_all _ _ _ _ _ c1 i),
    fun i => real_of_cmp _ a2 i (Host.reduce_andi_all _ _ _ _ _ c2 i),
    fun i => real_of_cmp _ a3 i (Host.reduce_andi_all _ _ _ _ _ c3 i),
    fun i => real_of_cmp _ a4 i (Host.reduce_andi_all _ _ _ _ _ c4 i),
    fun i => real_of_cmp _ a5 i (Host.reduce_andi_all _ _ _ _ _ c5 i)⟩

end Cert.FiniteInputs

end
-- ==== Proof.Val.Bridge.lean ====
import proofs.«423235_j29944511988266_3_alg».proof.Defs
import proofs.«423235_j29944511988266_3_alg».proof.Proof.Val.ChainProj
import proofs.«423235_j29944511988266_3_alg».proof.Proof.Val.Norm
import proofs.«423235_j29944511988266_3_alg».proof.Proof.Val.Stats
import proofs.«423235_j29944511988266_3_alg».proof.Proof.Val.StatsCol
import proofs.«423235_j29944511988266_3_alg».proof.Proof.Val.RefReal
import proofs.«423235_j29944511988266_3_alg».proof.Proof.Val.Finite

noncomputable section

namespace Cert.KernelIdeal.Val

open Cert.KernelIdeal Cert.KernelIdeal.Gen
open Idealize.ShloMosaic Idealize.ShloMosaic.TcCoe Idealize.SL.Sem Idealize.ShloMosaic.ValueIdx
open Cert.ReferenceIdeal.RefValue (p01 p10 lin mdR simR lin_mul_quarter_coe sum_mul_eq_simR p01_of_rep p10_of_rep)
open Cert.KernelIdeal.Val.Norm3 (arr3_4_eq arr3_5_eq rowNorm_apply colNorm_apply)

variable (m : (ℓ : Loc nD τ sig) → Buf (Elt Ideal) ℓ) (ρ : Dev nD → PrngReg) (c : Dev nD)

theorem bridge_lv01 (b : Fin 4) (mm : Fin 4096) (j : Fin 2) :
    (Hand.W7 m ρ c (Proc.devRef .tc main_v8) : S4x4096x2.Idx → EReal) (ix3 b mm j)
      = lin (m ((c.tc : Thread nD τ).loc main_arg0)) (m ((c.tc : Thread nD τ).loc main_arg4)) (m ((c.tc : Thread nD τ).loc main_arg5)) b mm j :=
  (W7_v8 m ρ c b mm j).trans (W2_v6_1 m ρ c b mm j)

theorem bridge_lv10 (b : Fin 4) (nn : Fin 4096) (j : Fin 2) :
    (Hand.W7 m ρ c (Proc.devRef .tc main_v13) : S4x4096x2.Idx → EReal) (ix3 b nn j)
      = lin (m ((c.tc : Thread nD τ).loc main_arg1)) (m ((c.tc : Thread nD τ).loc main_arg4)) (m ((c.tc : Thread nD τ).loc main_arg5)) b nn j :=
  (W7_v13 m ρ c b nn j).trans (W4_v11_1 m ρ c b nn j)

section Reals

variable {A0 A1 : S4x4096x256.Idx → ℝ} {A2 : S256x256.Idx → ℝ} {A3 : S256.Idx → ℝ}

theorem V5_v7_real (h0 : ∀ i, a0 m c i = ((A0 i : ℝ) : EReal)) (h2 : ∀ i, a2 m c i = ((A2 i : ℝ) : EReal)) (h3 : ∀ i, a3 m c i = ((A3 i : ℝ) : EReal))
    (i : S4x4096x256.Idx) :
    (Hand.V5 m ρ c main_v7 : S4x4096x256.Idx → EReal) i = ((mdR A0 A2 A3 (i 0) (i 1) (i 2) : ℝ) : EReal) := by
  rw [eq_ix3 i]
  exact ((V5_v7 m ρ c _ _ _).trans (W2_v6_0 m ρ c _ _ _)).trans (lin_mul_quarter_coe h0 h2 h3 _ _ _)

theorem V5_v12_real (h1 : ∀ i, a1 m c i = ((A1 i : ℝ) : EReal)) (h2 : ∀ i, a2 m c i = ((A2 i : ℝ) : EReal)) (h3 : ∀ i, a3 m c i = ((A3 i : ℝ) : EReal))
    (i : S4x4096x256.Idx) :
    (Hand.V5 m ρ c main_v12 : S4x4096x256.Idx → EReal) i = ((mdR A1 A2 A3 (i 0) (i 1) (i 2) : ℝ) : EReal) := by
  rw [eq_ix3 i]
  exact ((V5_v12 m ρ c _ _ _).trans (W4_v11_0 m ρ c _ _ _)).trans (lin_mul_quarter_coe h1 h2 h3 _ _ _)

end Reals

theorem bridge_p01 (hpre : Cert.Pre_KernelIdeal m) (b : Fin 4) (mm nn : Fin 4096) :
    (Hand.W7 m ρ c (Proc.devRef .tc main_v15_0) : S4x4096x4096.Idx → EReal) (ix3 b mm nn)
      = p01 (m ((c.tc : Thread nD τ).loc main_arg0)) (m ((c.tc : Thread nD τ).loc main_arg1)) (m ((c.tc : Thread nD τ).loc main_arg2)) (m ((c.tc : Thread nD τ).loc main_arg3)) b mm nn := by
  obtain ⟨f0, f1, f2, f3, -, -⟩ := Cert.FiniteInputs.finite_of_pre (a0 m c) (a1 m c) (a2 m c) (a3 m c) (a4 m c) (a5 m c) (hpre c)
  choose A0 h0 using f0
  choose A1 h1 using f1
  choose A2 h2 using f2
  choose A3 h3 using f3
  obtain ⟨M, Lr, hR, hlse⟩ := lse_row_apply (Hand.V5 m ρ) c (fun i => mdR A0 A2 A3 (i 0) (i 1) (i 2)) (fun i => mdR A1 A2 A3 (i 0) (i 1) (i 2))
    (V5_v7_real m ρ c h0 h2 h3) (V5_v12_real m ρ c h1 h2 h3) b mm
  rw [W7_v15_0 m ρ c, arr3_4_eq (Hand.V6 m ρ) c, rowNorm_apply, V6_v7 m ρ c, V6_v12 m ρ c, V6_v14_0 m ρ c, hlse,
    sum_mul_eq_simR (A0 := A0) (A1 := A1) (A2 := A2) (A3 := A3) (Hand.V5 m ρ c main_v7) (Hand.V5 m ρ c main_v12) b mm nn
      (fun d => V5_v7_real m ρ c h0 h2 h3 (ix3 b mm d)) (fun d => V5_v12_real m ρ c h1 h2 h3 (ix3 b nn d))]
  exact (p01_of_rep h0 h1 h2 h3 b mm M Lr hR nn).symm

theorem bridge_p10 (hpre : Cert.Pre_KernelIdeal m) (b : Fin 4) (mm nn : Fin 4096) :
    (Hand.W7 m ρ c (Proc.devRef .tc main_v15_1) : S4x4096x4096.Idx → EReal) (ix3 b mm nn)
      = p10 (m ((c.tc : Thread nD τ).loc main_arg0)) (m ((c.tc : Thread nD τ).loc main_arg1)) (m ((c.tc : Thread nD τ).loc main_arg2)) (m ((c.tc : Thread nD τ).loc main_arg3)) b mm nn := by
  obtain ⟨f0, f1, f2, f3, -, -⟩ := Cert.FiniteInputs.finite_of_pre (a0 m c) (a1 m c) (a2 m c) (a3 m c) (a4 m c) (a5 m c) (hpre c)
  choose A0 h0 using f0
  choose A1 h1 using f1
  choose A2 h2 using f2
  choose A3 h3 using f3
  obtain ⟨M, Lc, hR, hlse⟩ := lse_col_apply (Hand.V5 m ρ) c (fun i => mdR A0 A2 A3 (i 0) (i 1) (i 2)) (fun i => mdR A1 A2 A3 (i 0) (i 1) (i 2))
    (V5_v7_real m ρ c h0 h2 h3) (V5_v12_real m ρ c h1 h2 h3) b nn
  rw [W7_v15_1 m ρ c, arr3_5_eq (Hand.V6 m ρ) c, colNorm_apply, V6_v7 m ρ c, V6_v12 m ρ c, V6_v14_1 m ρ c, hlse,
    sum_mul_eq_simR (A0 := A0) (A1 := A1) (A2 := A2) (A3 := A3) (Hand.V5 m ρ c main_v7) (Hand.V5 m ρ c main_v12) b mm nn
      (fun d => V5_v7_real m ρ c h0 h2 h3 (ix3 b mm d)) (fun d => V5_v12_real m ρ c h1 h2 h3 (ix3 b nn d))]
  exact (p10_of_rep h0 h1 h2 h3 b nn M Lc hR mm).symm

end Cert.KernelIdeal.Val

end
-- ==== Proof.lean ====
import proofs.«423235_j29944511988266_3_alg».proof.Defs
import proofs.«423235_j29944511988266_3_alg».proof.Proof.Gen.Kernel
import proofs.«423235_j29944511988266_3_alg».proof.Proof.Gen.KernelIdeal
import proofs.«423235_j29944511988266_3_alg».proof.Proof.Gen.ReferenceIdeal
import proofs.«423235_j29944511988266_3_alg».proof.Proof.Gen.Pre_finite_inputs
import proofs.«423235_j29944511988266_3_alg».proof.Proof.SameProgram
import proofs.«423235_j29944511988266_3_alg».proof.Proof.KI.Run
import proofs.«423235_j29944511988266_3_alg».proof.Proof.Val.Ref
import proofs.«423235_j29944511988266_3_alg».proof.Proof.Val.Bridge
import Idealize.ShloMosaic.Lib.ValueIdx

noncomputable section

namespace Cert.Proof

open Idealize.ShloMosaic Idealize.ShloMosaic.TcCoe Idealize.SL.Sem Idealize.ShloMosaic.ValueIdx

theorem frame_ki : Cert.frame_KernelIdeal := fun m ρ _ =>
  (θ_run _ _ _).mono (fun _ h c => (h c).2) (Cert.KernelIdeal.Hand.run_at (F := Ideal) m ρ)

theorem algebraic : Cert.algebraic_KernelIdeal_ReferenceIdeal := by
  intro m ρ m' ρ' hpre hagree
  refine ⟨fun c => Cert.KernelIdeal.Hand.W7 m ρ c (Proc.devRef .tc Cert.KernelIdeal.main_v15_0),
    fun c => Cert.KernelIdeal.Hand.W7 m ρ c (Proc.devRef .tc Cert.KernelIdeal.main_v15_1),
    fun c => Cert.KernelIdeal.Hand.W7 m ρ c (Proc.devRef .tc Cert.KernelIdeal.main_v8),
    fun c => Cert.KernelIdeal.Hand.W7 m ρ c (Proc.devRef .tc Cert.KernelIdeal.main_v13), ?_, ?_⟩
  · refine (θ_run (Cert.KernelIdeal.defs (F := Ideal)) _ _).mono (fun r h c => ?_) (Cert.KernelIdeal.Hand.run_at (F := Ideal) m ρ)
    exact ⟨(h c).1 _ (by decide), (h c).1 _ (by decide), (h c).1 _ (by decide), (h c).1 _ (by decide), (h c).2⟩
  · refine (θ_run (Cert.ReferenceIdeal.defs (F := Ideal)) _ _).mono (fun r h c => ?_) (Cert.ReferenceIdeal.RefValue.run_closed m' ρ')
    obtain ⟨h23, h34, h38, h42, hargs⟩ := h c
    obtain ⟨e0, e1, e2, e3, e4, e5⟩ := hagree c
    refine ⟨h23.trans ?_, h34.trans ?_, h38.trans ?_, h42.trans ?_, hargs⟩
    · rw [e0, e1, e2, e3]; funext i
      obtain ⟨b, mm, nn, rfl⟩ : ∃ (b : Fin 4) (mm nn : Fin 4096), i = ix3 b mm nn := ⟨i 0, i 1, i 2, eq_ix3 i⟩
      exact (Cert.KernelIdeal.Val.bridge_p01 m ρ c hpre b mm nn).symm
    · rw [e0, e1, e2, e3]; funext i
      obtain ⟨b, mm, nn, rfl⟩ : ∃ (b : Fin 4) (mm nn : Fin 4096), i = ix3 b mm nn := ⟨i 0, i 1, i 2, eq_ix3 i⟩
      exact (Cert.KernelIdeal.Val.bridge_p10 m ρ c hpre b mm nn).symm
    · rw [e0, e4, e5]; funext i
      obtain ⟨b, mm, j, rfl⟩ : ∃ (b : Fin 4) (mm : Fin 4096) (j : Fin 2), i = ix3 b mm j := ⟨i 0, i 1, i 2, eq_ix3 i⟩
      exact (Cert.KernelIdeal.Val.bridge_lv01 m ρ c b mm j).symm
    · rw [e1, e4, e5]; funext i
      obtain ⟨b, nn, j, rfl⟩ : ∃ (b : Fin 4) (nn : Fin 4096) (j : Fin 2), i = ix3 b nn j := ⟨i 0, i 1, i 2, eq_ix3 i⟩
      exact (Cert.KernelIdeal.Val.bridge_lv10 m ρ c b nn j).symm

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefValue.frame_ri, trivial, algebraic⟩

end Cert.Proof

end
